-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_arg23 : FVec F S64 .f32) (main_arg24 : FVec F S64x10 .f32) (main_arg25 : FVec F S10 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x10 .f32 := Host.absf main_arg24
  let main_cst_42 : FVec F S_ .f32 := constant S_ .f32 0x7F800000#32
  let main_v110 : FVec F S64x10 .f32 := broadcastInDim S64x10 ![] bcast_S_S64x10 main_cst_42
  let main_v111 : IVec S64x10 1 := cmpf .olt main_v109 main_v110
  let main_c_43 : IVec S_ 1 := constantI S_ 1 1#1
  let main_v112 : IVec S_ 1 := (fun x v => Host.reduce IntOp.andi x v reducesTo_S64x10_S_d0_1 h_S_) main_v111 main_c_43
  let main_v113 : IVec S_ 1 := andi main_v108 main_v112
  let main_v114 : FVec F S10 .f32 := Host.absf main_arg25
  let main_cst_44 : FVec F S_ .f32 := constant S_ .f32 0x7F800000#32
  let main_v115 : FVec F S10 .f32 := broadcastInDim S10 ![] bcast_S_S10 main_cst_44
  let main_v116 : IVec S10 1 := cmpf .olt main_v114 main_v115
  let main_c_45 : IVec S_ 1 := constantI S_ 1 1#1
  let main_v117 : IVec S_ 1 := (fun x v => Host.reduce IntOp.andi x v reducesTo_S10_S_d0 h_S_) main_v116 main_c_45
  let main_v118 : IVec S_ 1 := andi main_v113 main_v117
  main_v118

def fn_part5 {F : FTy → Type} [FloatOps F] (main_arg20 : FVec F S128x64 .f32) (main_arg21 : FVec F S64 .f32) (main_arg22 : FVec F S64 .f32) (main_arg23 : FVec F S64 .f32) (main_arg24 : FVec F S64x10 .f32) (main_arg25 : FVec F S10 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x64 .f32 := Host.absf main_arg20
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_arg25 main_v98 main_v101 main_c_39

def fn_part4 {F : FTy → Type} [FloatOps F] (main_arg16 : FVec F S256x128 .f32) (main_arg17 : FVec F S128 .f32) (main_arg18 : FVec F S128 .f32) (main_arg19 : FVec F S128 .f32) (main_arg20 : FVec F S128x64 .f32) (main_arg21 : FVec F S64 .f32) (main_arg22 : FVec F S64 .f32) (main_arg23 : FVec F S64 .f32) (main_arg24 : FVec F S64x10 .f32) (main_arg25 : FVec F S10 .f32) (main_v63 : IVec S_ 1) (main_v67 : IVec S_ 1) : IVec S_ 1 :=
  let main_v68 : IVec S_ 1 := andi main_v63 main_v67
  let main_v69 : FVec F S256x128 .f32 := Host.absf main_arg16
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_v83 main_v84 main_cst_32

def fn_part3 {F : FTy → Type} [FloatOps F] (main_arg13 : FVec F S256 .f32) (main_arg14 : FVec F S256 .f32) (main_arg15 : FVec F S256 .f32) (main_arg16 : FVec F S256x128 .f32) (main_arg17 : FVec F S128 .f32) (main_arg18 : FVec F S128 .f32) (main_arg19 : FVec F S128 .f32) (main_arg20 : FVec F S128x64 .f32) (main_arg21 : FVec F S64 .f32) (main_arg22 : FVec F S64 .f32) (main_arg23 : FVec F S64 .f32) (main_arg24 : FVec F S64x10 .f32) (main_arg25 : FVec F S10 .f32) (main_v48 : IVec S_ 1) (main_v49 : FVec F S64x256 .f32) (main_v50 : FVec F S64x256 .f32) : IVec S_ 1 :=
  let main_v51 : IVec S64x256 1 := cmpf .olt main_v49 main_v50
  let main_c_19 : IVec S_ 1 := constantI S_ 1 1#1
  let main_v52 : IVec S_ 1 := (fun x v => Host.reduce IntOp.andi x v reducesTo_S64x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_arg20 main_arg21 main_arg22 main_arg23 main_arg24 main_arg25 main_v63 main_v67

def fn_part2 {F : FTy → Type} [FloatOps F] (main_arg9 : FVec F S64x64 .f32) (main_arg10 : FVec F S64 .f32) (main_arg11 : FVec F S64x64 .f32) (main_arg12 : FVec F S64x256 .f32) (main_arg13 : FVec F S256 .f32) (main_arg14 : FVec F S256 .f32) (main_arg15 : FVec F S256 .f32) (main_arg16 : FVec F S256x128 .f32) (main_arg17 : FVec F S128 .f32) (main_arg18 : FVec F S128 .f32) (main_arg19 : FVec F S128 .f32) (main_arg20 : FVec F S128x64 .f32) (main_arg21 : FVec F S64 .f32) (main_arg22 : FVec F S64 .f32) (main_arg23 : FVec F S64 .f32) (main_arg24 : FVec F S64x10 .f32) (main_arg25 : FVec F S10 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x256 .f32 := Host.absf main_arg12
  let main_cst_18 : FVec F S_ .f32 := constant S_ .f32 0x7F800000#32
  let main_v50 : FVec F S64x256 .f32 := broadcastInDim S64x256 ![] bcast_S_S64x256 main_cst_18
  fn_part3 (F := F) main_arg13 main_arg14 main_arg15 main_arg16 main_arg17 main_arg18 main_arg19 main_arg20 main_arg21 main_arg22 main_arg23 main_arg24 main_arg25 main_v48 main_v49 main_v50

def fn_part1 {F : FTy → Type} [FloatOps F] (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x256 .f32) (main_arg13 : FVec F S256 .f32) (main_arg14 : FVec F S256 .f32) (main_arg15 : FVec F S256 .f32) (main_arg16 : FVec F S256x128 .f32) (main_arg17 : FVec F S128 .f32) (main_arg18 : FVec F S128 .f32) (main_arg19 : FVec F S128 .f32) (main_arg20 : FVec F S128x64 .f32) (main_arg21 : FVec F S64 .f32) (main_arg22 : FVec F S64 .f32) (main_arg23 : FVec F S64 .f32) (main_arg24 : FVec F S64x10 .f32) (main_arg25 : FVec F S10 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S128x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x256 .f32) (main_arg13 : FVec F S256 .f32) (main_arg14 : FVec F S256 .f32) (main_arg15 : FVec F S256 .f32) (main_arg16 : FVec F S256x128 .f32) (main_arg17 : FVec F S128 .f32) (main_arg18 : FVec F S128 .f32) (main_arg19 : FVec F S128 .f32) (main_arg20 : FVec F S128x64 .f32) (main_arg21 : FVec F S64 .f32) (main_arg22 : FVec F S64 .f32) (main_arg23 : FVec F S64 .f32) (main_arg24 : FVec F S64x10 .f32) (main_arg25 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S256x64 : Shape := ⟨2, ![256, 64]⟩
abbrev S5000x1 : Shape := ⟨2, ![5000, 1]⟩
abbrev S5000x256 : Shape := ⟨2, ![5000, 256]⟩
abbrev S256x5000 : Shape := ⟨2, ![256, 5000]⟩
abbrev S256x1 : Shape := ⟨2, ![256, 1]⟩
abbrev S1x256 : Shape := ⟨2, ![1, 256]⟩
abbrev S1x128 : Shape := ⟨2, ![1, 128]⟩
abbrev S1x10 : Shape := ⟨2, ![1, 10]⟩
abbrev S256x10 : Shape := ⟨2, ![256, 10]⟩
abbrev S256x256 : Shape := ⟨2, ![256, 256]⟩

abbrev nBuf : Space → Nat
  | .hbm => 116
  | .vmem => 49
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256x128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128x64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64x10, .f32⟩
  | .hbm, ⟨25, _⟩ => ⟨S10, .f32⟩
  | .hbm, ⟨26, _⟩ => ⟨S1x800000, .i32⟩
  | .hbm, ⟨27, _⟩ => ⟨S800000, .i32⟩
  | .hbm, ⟨28, _⟩ => ⟨S1x800000, .i32⟩
  | .hbm, ⟨29, _⟩ => ⟨S800000, .i32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S1x64, .f32⟩
  | .hbm, ⟨56, _⟩ => ⟨S50000x64, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x64, .f32⟩
  | .hbm, ⟨83, _⟩ => ⟨S_, .f32⟩
  | .hbm, ⟨84, _⟩ => ⟨S50000x64, .f32⟩
  | .hbm, ⟨85, _⟩ => ⟨S800000x1, .i32⟩
  | .hbm, ⟨86, _⟩ => ⟨S50000x64, .f32⟩
  | .hbm, ⟨87, _⟩ => ⟨S50000x64, .f32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x1, .i32⟩
  | .hbm, ⟨92, _⟩ => ⟨S256x64, .f32⟩
  | .hbm, ⟨93, _⟩ => ⟨S_, .f32⟩
  | .hbm, ⟨94, _⟩ => ⟨S50000, .f32⟩
  | .hbm, ⟨95, _⟩ => ⟨S_, .f32⟩
  | .hbm, ⟨96, _⟩ => ⟨S256, .f32⟩
  | .hbm, ⟨97, _⟩ => ⟨S50000x1, .i32⟩
  | .hbm, ⟨98, _⟩ => ⟨S256, .f32⟩
  | .hbm, ⟨99, _⟩ => ⟨S_, .f32⟩
  | .hbm, ⟨100, _⟩ => ⟨S256, .f32⟩
  | .hbm, ⟨101, _⟩ => ⟨S256, .f32⟩
  | .hbm, ⟨102, _⟩ => ⟨S256x1, .f32⟩
  | .hbm, ⟨103, _⟩ => ⟨S256x64, .f32⟩
  | .hbm, ⟨104, _⟩ => ⟨S256x64, .f32⟩
  | .hbm, ⟨105, _⟩ => ⟨S1x256, .f32⟩
  | .hbm, ⟨106, _⟩ => ⟨S1x256, .f32⟩
  | .hbm, ⟨107, _⟩ => ⟨S1x256, .f32⟩
  | .hbm, ⟨108, _⟩ => ⟨S1x128, .f32⟩
  | .hbm, ⟨109, _⟩ => ⟨S1x128, .f32⟩
  | .hbm, ⟨110, _⟩ => ⟨S1x128, .f32⟩
  | .hbm, ⟨111, _⟩ => ⟨S1x64, .f32⟩
  | .hbm, ⟨112, _⟩ => ⟨S1x64, .f32⟩
  | .hbm, ⟨113, _⟩ => ⟨S1x64, .f32⟩
  | .hbm, ⟨114, _⟩ => ⟨S1x10, .f32⟩
  | .hbm, ⟨115, _⟩ => ⟨S256x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S1x64, .f32⟩
  | .local _ .vmem, ⟨6, _⟩ => ⟨S128x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x1, .i32⟩
  | .local _ .vmem, ⟨30, _⟩ => ⟨S5000x1, .i32⟩
  | .local _ .vmem, ⟨31, _⟩ => ⟨S256x64, .f32⟩
  | .local _ .vmem, ⟨32, _⟩ => ⟨S256x64, .f32⟩
  | .local _ .vmem, ⟨33, _⟩ => ⟨S256x64, .f32⟩
  | .local _ .vmem, ⟨34, _⟩ => ⟨S64x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S256x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S128x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S64x10, .f32⟩
  | .local _ .vmem, ⟨47, _⟩ => ⟨S1x10, .f32⟩
  | .local _ .vmem, ⟨48, _⟩ => ⟨S256x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c : Ref sig .tc := ⟨.hbm, 40, rfl⟩
abbrev main_v11 : Ref sig .tc := ⟨.hbm, 41, rfl⟩
abbrev main_v12 : Ref sig .tc := ⟨.hbm, 42, rfl⟩
abbrev main_c_2 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_3 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_4 : Ref sig .tc := ⟨.hbm, 57, rfl⟩
abbrev main_v25 : Ref sig .tc := ⟨.hbm, 58, rfl⟩
abbrev main_v26 : Ref sig .tc := ⟨.hbm, 59, rfl⟩
abbrev main_c_5 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_6 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c_7 : Ref sig .tc := ⟨.hbm, 74, rfl⟩
abbrev main_v39 : Ref sig .tc := ⟨.hbm, 75, rfl⟩
abbrev main_v40 : Ref sig .tc := ⟨.hbm, 76, rfl⟩
abbrev main_c_8 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_9 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_10 : Ref sig .tc := ⟨.hbm, 93, rfl⟩
abbrev main_v55 : Ref sig .tc := ⟨.hbm, 94, rfl⟩
abbrev main_cst_11 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_12 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_scratch0 : Ref sig .tc := ⟨.vmem, 32, rfl⟩
abbrev cc4_stg0_0 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg7_0 : Ref sig .tc := ⟨.vmem, 40, rfl⟩
abbrev cc4_stg8_0 : Ref sig .tc := ⟨.vmem, 41, rfl⟩
abbrev cc4_stg9_0 : Ref sig .tc := ⟨.vmem, 42, rfl⟩
abbrev cc4_stg10_0 : Ref sig .tc := ⟨.vmem, 43, rfl⟩
abbrev cc4_stg11_0 : Ref sig .tc := ⟨.vmem, 44, rfl⟩
abbrev cc4_stg12_0 : Ref sig .tc := ⟨.vmem, 45, rfl⟩
abbrev cc4_stg13_0 : Ref sig .tc := ⟨.vmem, 46, rfl⟩
abbrev cc4_stg14_0 : Ref sig .tc := ⟨.vmem, 47, rfl⟩
abbrev cc4_stg15_0 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc4_sem0_0 : DmaSem sig := 32
abbrev cc4_sem1_0 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem7_0 : DmaSem sig := 39
abbrev cc4_sem8_0 : DmaSem sig := 40
abbrev cc4_sem9_0 : DmaSem sig := 41
abbrev cc4_sem10_0 : DmaSem sig := 42
abbrev cc4_sem11_0 : DmaSem sig := 43
abbrev cc4_sem12_0 : DmaSem sig := 44
abbrev cc4_sem13_0 : DmaSem sig := 45
abbrev cc4_sem14_0 : DmaSem sig := 46
abbrev cc4_sem15_0 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v21 : BitVec 1 := Scalar.cmpi .eq arg0 c9_i32
  let v22 : BitVec 32 := Scalar.extui v21
  let c0_i32_8 : BitVec 32 := 0#32
  let v23 : BitVec 1 := Scalar.cmpi .ne v22 c0_i32_8
  v23

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S128x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x64 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x64 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S64x10 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S1x10 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S256x10 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S50000_S50000x1 : S50000.ShapeCasts S50000x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x256_d1_w32 : S5000x256.Iotas .tc 32 [1]
  broadcasts_S5000x1_S5000x256 : S5000x1.Broadcasts S5000x256
  natLt_1_32 : 1 < 32
  transposes_S5000x256_p1_0_S256x5000 : S5000x256.Transposes [1, 0] S256x5000
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S256_S1x256 : S256.ShapeCasts S1x256
  shapeCasts_S128_S1x128 : S128.ShapeCasts S1x128
  shapeCasts_S10_S1x10 : S10.ShapeCasts S1x10
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  reduces_S256x256_S256 : S256x256.Reduces [0] S256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  reduces_S256x128_S128 : S256x128.Reduces [0] S128
  broadcasts_S1x64_S256x64 : S1x64.Broadcasts S256x64
  reduces_S256x64_S64 : S256x64.Reduces [0] S64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S256x5000_S5000x64_S256x64_1_0_0_1_n_n_wf : DotDims.WF S256x5000 S5000x64 S256x64 [1] [0] [0] [1] [] []
  scatter_S256_S50000x1_S50000_n_0_0_1_wf : ScatterDims.WF S256 S50000x1 S50000 [] [0] [0] 1
  dot_S256x64_S64x256_S256x256_1_0_0_1_n_n_wf : DotDims.WF S256x64 S64x256 S256x256 [1] [0] [0] [1] [] []
  dot_S256x256_S256x128_S256x128_1_0_0_1_n_n_wf : DotDims.WF S256x256 S256x128 S256x128 [1] [0] [0] [1] [] []
  dot_S256x128_S128x64_S256x64_1_0_0_1_n_n_wf : DotDims.WF S256x128 S128x64 S256x64 [1] [0] [0] [1] [] []
  dot_S256x64_S64x10_S256x10_1_0_0_1_n_n_wf : DotDims.WF S256x64 S64x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .i32 = 32 ∨ (Rect.block (s := S50000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x64.size a ≤ S256x64.size a
  hwx3_2 : ∀ i : grid3.Coords, EltTy.bits .f32 = 32 ∨ (Rect.block (s := S256x64) S256x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x64.size a ≤ S256x64.size a
  hwx4_0 : ∀ i : grid4.Coords, EltTy.bits .f32 = 32 ∨ (Rect.block (s := S256x64) S256x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x256.size a ≤ S64x256.size a
  hwx4_1 : ∀ i : grid4.Coords, EltTy.bits .f32 = 32 ∨ (Rect.block (s := S64x256) S64x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x128.size a ≤ S256x128.size a
  hwx4_5 : ∀ i : grid4.Coords, EltTy.bits .f32 = 32 ∨ (Rect.block (s := S256x128) S256x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S128x64.size a ≤ S128x64.size a
  hwx4_9 : ∀ i : grid4.Coords, EltTy.bits .f32 = 32 ∨ (Rect.block (s := S128x64) S128x64.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x64.size a ≤ S1x64.size a
  hwx4_10 : ∀ i : grid4.Coords, EltTy.bits .f32 = 32 ∨ (Rect.block (s := S1x64) S1x64.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x64.size a ≤ S1x64.size a
  hwx4_11 : ∀ i : grid4.Coords, EltTy.bits .f32 = 32 ∨ (Rect.block (s := S1x64) S1x64.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x64.size a ≤ S1x64.size a
  hwx4_12 : ∀ i : grid4.Coords, EltTy.bits .f32 = 32 ∨ (Rect.block (s := S1x64) S1x64.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S64x10.size a ≤ S64x10.size a
  hwx4_13 : ∀ i : grid4.Coords, EltTy.bits .f32 = 32 ∨ (Rect.block (s := S64x10) S64x10.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S1x10.size a ≤ S1x10.size a
  hwx4_14 : ∀ i : grid4.Coords, EltTy.bits .f32 = 32 ∨ (Rect.block (s := S1x10) S1x10.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S256x10.size a ≤ S256x10.size a
  hwx4_15 : ∀ i : grid4.Coords, EltTy.bits .f32 = 32 ∨ (Rect.block (s := S256x10) S256x10.size (cc4_transform_15 i) (hinb4_15 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S256x5000_S5000x64_S256x64_1_0_0_1_n_n : DotDims S256x5000 S5000x64 S256x64 where
  lhsContracting := [1]
  rhsContracting := [0]
  lhsNonContracting := [0]
  rhsNonContracting := [1]
  lhsBatch := []
  rhsBatch := []
  wf := dot_S256x5000_S5000x64_S256x64_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S256x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v63) S256x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S64x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg16) S256x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v67) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v68) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v69) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg20) S128x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v70) S1x64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v71) S1x64.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v72) S1x64.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_arg24) S64x10.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v73) S1x10.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_v74) S256x10.size cc4_transform_15 reads4_15 true true 1 stage4_15 sem4_15
    hrank4 hreads4_15 hinb4_15 nbuf4_15 (Memref.isWhole_whole _) hwx4_15 hstage4_15

abbrev win4 : Fin 16 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | ⟨_ + 16, h⟩ => absurd h (Nat.not_lt.2 (Nat.le_add_left _ _))
abbrev spec4 : Fin 16 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S50000x64 : Shape := ⟨2, ![50000, 64]⟩
abbrev S1x64 : Shape := ⟨2, ![1, 64]⟩
abbrev S800000x64 : Shape := ⟨2, ![800000, 64]⟩
abbrev S256x64 : Shape := ⟨2, ![256, 64]⟩
abbrev S256x1 : Shape := ⟨2, ![256, 1]⟩
abbrev S256x256 : Shape := ⟨2, ![256, 256]⟩
abbrev S1x256 : Shape := ⟨2, ![1, 256]⟩
abbrev S1x128 : Shape := ⟨2, ![1, 128]⟩
abbrev S256x10 : Shape := ⟨2, ![256, 10]⟩
abbrev S1x10 : Shape := ⟨2, ![1, 10]⟩

abbrev nBuf : Space → Nat
  | .hbm => 248
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S128x64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x256, .f32⟩
  | 13 => ⟨S256, .f32⟩
  | 14 => ⟨S256, .f32⟩
  | 15 => ⟨S256, .f32⟩
  | 16 => ⟨S256x128, .f32⟩
  | 17 => ⟨S128, .f32⟩
  | 18 => ⟨S128, .f32⟩
  | 19 => ⟨S128, .f32⟩
  | 20 => ⟨S128x64, .f32⟩
  | 21 => ⟨S64, .f32⟩
  | 22 => ⟨S64, .f32⟩
  | 23 => ⟨S64, .f32⟩
  | 24 => ⟨S64x10, .f32⟩
  | 25 => ⟨S10, .f32⟩
  | 26 => ⟨S1x800000, .i32⟩
  | 27 => ⟨S800000, .i32⟩
  | 28 => ⟨S1x800000, .i32⟩
  | 29 => ⟨S800000, .i32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x128, .f32⟩
  | 39 => ⟨S_, .f32⟩
  | 40 => ⟨S50000x128, .f32⟩
  | 41 => ⟨S800000x1, .i32⟩
  | 42 => ⟨S50000x128, .f32⟩
  | 43 => ⟨S_, .f32⟩
  | 44 => ⟨S800000, .f32⟩
  | 45 => ⟨S_, .f32⟩
  | 46 => ⟨S50000, .f32⟩
  | 47 => ⟨S800000x1, .i32⟩
  | 48 => ⟨S50000, .f32⟩
  | 49 => ⟨S_, .f32⟩
  | 50 => ⟨S50000, .f32⟩
  | 51 => ⟨S50000, .f32⟩
  | 52 => ⟨S50000x1, .f32⟩
  | 53 => ⟨S50000x128, .f32⟩
  | 54 => ⟨S50000x128, .f32⟩
  | 55 => ⟨S50000x64, .f32⟩
  | 56 => ⟨S1x64, .f32⟩
  | 57 => ⟨S50000x64, .f32⟩
  | 58 => ⟨S50000x64, .f32⟩
  | 59 => ⟨S50000x64, .f32⟩
  | 60 => ⟨S50000x64, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x64, .f32⟩
  | 70 => ⟨S_, .f32⟩
  | 71 => ⟨S50000x64, .f32⟩
  | 72 => ⟨S800000x1, .i32⟩
  | 73 => ⟨S50000x64, .f32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S50000x1, .f32⟩
  | 84 => ⟨S50000x64, .f32⟩
  | 85 => ⟨S50000x64, .f32⟩
  | 86 => ⟨S50000x64, .f32⟩
  | 87 => ⟨S1x64, .f32⟩
  | 88 => ⟨S50000x64, .f32⟩
  | 89 => ⟨S50000x64, .f32⟩
  | 90 => ⟨S50000x64, .f32⟩
  | 91 => ⟨S50000x64, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x64, .f32⟩
  | 101 => ⟨S_, .f32⟩
  | 102 => ⟨S50000x64, .f32⟩
  | 103 => ⟨S800000x1, .i32⟩
  | 104 => ⟨S50000x64, .f32⟩
  | 105 => ⟨S_, .f32⟩
  | 106 => ⟨S800000, .f32⟩
  | 107 => ⟨S_, .f32⟩
  | 108 => ⟨S50000, .f32⟩
  | 109 => ⟨S800000x1, .i32⟩
  | 110 => ⟨S50000, .f32⟩
  | 111 => ⟨S_, .f32⟩
  | 112 => ⟨S50000, .f32⟩
  | 113 => ⟨S50000, .f32⟩
  | 114 => ⟨S50000x1, .f32⟩
  | 115 => ⟨S50000x64, .f32⟩
  | 116 => ⟨S50000x64, .f32⟩
  | 117 => ⟨S50000x64, .f32⟩
  | 118 => ⟨S1x64, .f32⟩
  | 119 => ⟨S50000x64, .f32⟩
  | 120 => ⟨S50000x64, .f32⟩
  | 121 => ⟨S50000x64, .f32⟩
  | 122 => ⟨S50000x64, .f32⟩
  | 123 => ⟨S_, .f32⟩
  | 124 => ⟨S256x64, .f32⟩
  | 125 => ⟨S50000x1, .i32⟩
  | 126 => ⟨S256x64, .f32⟩
  | 127 => ⟨S_, .f32⟩
  | _ => ⟨S50000x128, .f32⟩

abbrev hbmTy0_1 (i : Nat) : BufTy := match i % 128 with
  | 0 => ⟨S50000, .f32⟩
  | 1 => ⟨S_, .f32⟩
  | 2 => ⟨S256, .f32⟩
  | 3 => ⟨S50000x1, .i32⟩
  | 4 => ⟨S256, .f32⟩
  | 5 => ⟨S_, .f32⟩
  | 6 => ⟨S256, .f32⟩
  | 7 => ⟨S256, .f32⟩
  | 8 => ⟨S256x1, .f32⟩
  | 9 => ⟨S256x64, .f32⟩
  | 10 => ⟨S256x64, .f32⟩
  | 11 => ⟨S256x256, .f32⟩
  | 12 => ⟨S1x256, .f32⟩
  | 13 => ⟨S256x256, .f32⟩
  | 14 => ⟨S256x256, .f32⟩
  | 15 => ⟨S_, .f32⟩
  | 16 => ⟨S256, .f32⟩
  | 17 => ⟨S_, .f32⟩
  | 18 => ⟨S256, .f32⟩
  | 19 => ⟨S256, .f32⟩
  | 20 => ⟨S1x256, .f32⟩
  | 21 => ⟨S256x256, .f32⟩
  | 22 => ⟨S256x256, .f32⟩
  | 23 => ⟨S256x256, .f32⟩
  | 24 => ⟨S_, .f32⟩
  | 25 => ⟨S256, .f32⟩
  | 26 => ⟨S_, .f32⟩
  | 27 => ⟨S256, .f32⟩
  | 28 => ⟨S256, .f32⟩
  | 29 => ⟨S1x256, .f32⟩
  | 30 => ⟨S256x256, .f32⟩
  | 31 => ⟨S256x256, .f32⟩
  | 32 => ⟨S_, .f32⟩
  | 33 => ⟨S256, .f32⟩
  | 34 => ⟨S256, .f32⟩
  | 35 => ⟨S256, .f32⟩
  | 36 => ⟨S1x256, .f32⟩
  | 37 => ⟨S256x256, .f32⟩
  | 38 => ⟨S256x256, .f32⟩
  | 39 => ⟨S1x256, .f32⟩
  | 40 => ⟨S256x256, .f32⟩
  | 41 => ⟨S256x256, .f32⟩
  | 42 => ⟨S1x256, .f32⟩
  | 43 => ⟨S256x256, .f32⟩
  | 44 => ⟨S256x256, .f32⟩
  | 45 => ⟨S256x256, .f32⟩
  | 46 => ⟨S256x128, .f32⟩
  | 47 => ⟨S1x128, .f32⟩
  | 48 => ⟨S256x128, .f32⟩
  | 49 => ⟨S256x128, .f32⟩
  | 50 => ⟨S_, .f32⟩
  | 51 => ⟨S128, .f32⟩
  | 52 => ⟨S_, .f32⟩
  | 53 => ⟨S128, .f32⟩
  | 54 => ⟨S128, .f32⟩
  | 55 => ⟨S1x128, .f32⟩
  | 56 => ⟨S256x128, .f32⟩
  | 57 => ⟨S256x128, .f32⟩
  | 58 => ⟨S256x128, .f32⟩
  | 59 => ⟨S_, .f32⟩
  | 60 => ⟨S128, .f32⟩
  | 61 => ⟨S_, .f32⟩
  | 62 => ⟨S128, .f32⟩
  | 63 => ⟨S128, .f32⟩
  | 64 => ⟨S1x128, .f32⟩
  | 65 => ⟨S256x128, .f32⟩
  | 66 => ⟨S256x128, .f32⟩
  | 67 => ⟨S_, .f32⟩
  | 68 => ⟨S128, .f32⟩
  | 69 => ⟨S128, .f32⟩
  | 70 => ⟨S128, .f32⟩
  | 71 => ⟨S1x128, .f32⟩
  | 72 => ⟨S256x128, .f32⟩
  | 73 => ⟨S256x128, .f32⟩
  | 74 => ⟨S1x128, .f32⟩
  | 75 => ⟨S256x128, .f32⟩
  | 76 => ⟨S256x128, .f32⟩
  | 77 => ⟨S1x128, .f32⟩
  | 78 => ⟨S256x128, .f32⟩
  | 79 => ⟨S256x128, .f32⟩
  | 80 => ⟨S256x128, .f32⟩
  | 81 => ⟨S256x64, .f32⟩
  | 82 => ⟨S1x64, .f32⟩
  | 83 => ⟨S256x64, .f32⟩
  | 84 => ⟨S256x64, .f32⟩
  | 85 => ⟨S_, .f32⟩
  | 86 => ⟨S64, .f32⟩
  | 87 => ⟨S_, .f32⟩
  | 88 => ⟨S64, .f32⟩
  | 89 => ⟨S64, .f32⟩
  | 90 => ⟨S1x64, .f32⟩
  | 91 => ⟨S256x64, .f32⟩
  | 92 => ⟨S256x64, .f32⟩
  | 93 => ⟨S256x64, .f32⟩
  | 94 => ⟨S_, .f32⟩
  | 95 => ⟨S64, .f32⟩
  | 96 => ⟨S_, .f32⟩
  | 97 => ⟨S64, .f32⟩
  | 98 => ⟨S64, .f32⟩
  | 99 => ⟨S1x64, .f32⟩
  | 100 => ⟨S256x64, .f32⟩
  | 101 => ⟨S256x64, .f32⟩
  | 102 => ⟨S_, .f32⟩
  | 103 => ⟨S64, .f32⟩
  | 104 => ⟨S64, .f32⟩
  | 105 => ⟨S64, .f32⟩
  | 106 => ⟨S1x64, .f32⟩
  | 107 => ⟨S256x64, .f32⟩
  | 108 => ⟨S256x64, .f32⟩
  | 109 => ⟨S1x64, .f32⟩
  | 110 => ⟨S256x64, .f32⟩
  | 111 => ⟨S256x64, .f32⟩
  | 112 => ⟨S1x64, .f32⟩
  | 113 => ⟨S256x64, .f32⟩
  | 114 => ⟨S256x64, .f32⟩
  | 115 => ⟨S256x64, .f32⟩
  | 116 => ⟨S256x10, .f32⟩
  | 117 => ⟨S1x10, .f32⟩
  | 118 => ⟨S256x10, .f32⟩
  | 119 => ⟨S256x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_1 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_3 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_4 : Ref sig .tc := ⟨.hbm, 61, rfl⟩
abbrev main_v29 : Ref sig .tc := ⟨.hbm, 62, rfl⟩
abbrev main_v30 : Ref sig .tc := ⟨.hbm, 63, rfl⟩
abbrev main_c_5 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_6 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_7 : Ref sig .tc := ⟨.hbm, 74, rfl⟩
abbrev main_v39 : Ref sig .tc := ⟨.hbm, 75, rfl⟩
abbrev main_cst_8 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_9 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_c_10 : Ref sig .tc := ⟨.hbm, 92, rfl⟩
abbrev main_v54 : Ref sig .tc := ⟨.hbm, 93, rfl⟩
abbrev main_v55 : Ref sig .tc := ⟨.hbm, 94, rfl⟩
abbrev main_c_11 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_12 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_13 : Ref sig .tc := ⟨.hbm, 105, rfl⟩
abbrev main_v64 : Ref sig .tc := ⟨.hbm, 106, rfl⟩
abbrev main_cst_14 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_15 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_16 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_17 : Ref sig .tc := ⟨.hbm, 127, rfl⟩
abbrev main_v82 : Ref sig .tc := ⟨.hbm, 128, rfl⟩
abbrev main_cst_18 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_19 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_20 : Ref sig .tc := ⟨.hbm, 143, rfl⟩
abbrev main_v95 : Ref sig .tc := ⟨.hbm, 144, rfl⟩
abbrev main_cst_21 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_22 : Ref sig .tc := ⟨.hbm, 152, rfl⟩
abbrev main_v102 : Ref sig .tc := ⟨.hbm, 153, rfl⟩
abbrev main_cst_23 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_24 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_cst_25 : Ref sig .tc := ⟨.hbm, 178, rfl⟩
abbrev main_v125 : Ref sig .tc := ⟨.hbm, 179, rfl⟩
abbrev main_cst_26 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_27 : Ref sig .tc := ⟨.hbm, 187, rfl⟩
abbrev main_v132 : Ref sig .tc := ⟨.hbm, 188, rfl⟩
abbrev main_cst_28 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_29 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_cst_30 : Ref sig .tc := ⟨.hbm, 213, rfl⟩
abbrev main_v155 : Ref sig .tc := ⟨.hbm, 214, rfl⟩
abbrev main_cst_31 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_cst_32 : Ref sig .tc := ⟨.hbm, 222, rfl⟩
abbrev main_v162 : Ref sig .tc := ⟨.hbm, 223, rfl⟩
abbrev main_cst_33 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_cst_34 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  reducesTo_S256x256_S256_d0 : S256x256.ReducesTo [0] S256
  h_S_ : 0 < S_.numel
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  reducesTo_S256x128_S128_d0 : S256x128.ReducesTo [0] S128
  bcast_S_S128 : S_.BroadcastsInDim S128 (![] : Fin 0 → Fin S128.rank)
  bcast_S1x64_S256x64_0_1 : S1x64.BroadcastsInDim S256x64 (![0, 1] : Fin 2 → Fin S256x64.rank)
  reducesTo_S256x64_S64_d0 : S256x64.ReducesTo [0] S64
  bcast_S_S64 : S_.BroadcastsInDim S64 (![] : Fin 0 → Fin S64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x64_S64x256_S256x256_1_0_0_1_n_n_wf : DotDims.WF S256x64 S64x256 S256x256 [1] [0] [0] [1] [] []
  dot_S256x256_S256x128_S256x128_1_0_0_1_n_n_wf : DotDims.WF S256x256 S256x128 S256x128 [1] [0] [0] [1] [] []
  dot_S256x128_S128x64_S256x64_1_0_0_1_n_n_wf : DotDims.WF S256x128 S128x64 S256x64 [1] [0] [0] [1] [] []
  dot_S256x64_S64x10_S256x10_1_0_0_1_n_n_wf : DotDims.WF S256x64 S64x10 S256x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

class Facts : Prop extends Facts₀ where

variable [Facts]
-- ==== Proof.K.Sage0.lean ====
/- Region 0, layer 1's linear transform, one row block of 5000 nodes per grid point: the output block at a point is
   `agg · Wl + bl + x · Wr` of the five input blocks at that point. -/
import proofs.«409739_j33028298506661_1_alg».proof.Proof.Gen.Kernel.Launch
import proofs.«409739_j33028298506661_1_alg».proof.Proof.Gen.Kernel.Skeleton
import proofs.«409739_j33028298506661_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S5000x128 := Rect.unit (s := S5000x128) ![0, 0] S5000x128.size inb_S5000x128_S5000x128_0_0
abbrev r0_w : Rect S128x64 := Rect.unit (s := S128x64) ![0, 0] S128x64.size inb_S128x64_S128x64_0_0
abbrev r0_b : Rect S1x64 := Rect.unit (s := S1x64) ![0, 0] S1x64.size inb_S1x64_S1x64_0_0
abbrev r0_o : Rect S5000x64 := Rect.unit (s := S5000x64) ![0, 0] S5000x64.size inb_S5000x64_S5000x64_0_0

def out0_5 (x0 : Vec F S5000x128 .f32) (x1 : Vec F S5000x128 .f32) (x2 : Vec F S128x64 .f32) (x3 : Vec F S1x64 .f32) (x4 : Vec F S128x64 .f32) : Vec F S5000x64 .f32 :=
  View.canon [⟨r0_o, k0_pay1 (View.ld x0 r0_a) (View.ld x1 r0_a) (View.ld x2 r0_w) (View.ld x4 r0_w) (View.ld x3 r0_b)⟩]

theorem cover0_5 (p0 : Vec F S5000x64 .f32) (y : S5000x64.Idx) :
    ∃ pc ∈ ([⟨r0_o, p0⟩] : List (View.Piece (Elt F) S5000x64 .f32)), y ∈ pc.1.set :=
  View.cover_of_tiled [⟨r0_o, p0⟩] S5000x64.size (by rfl) y

set_option maxHeartbeats 1000000 in
/-- The body's triple: it computes the payload of its inputs and changes nothing else. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (x0 : Vec F S5000x128 .f32) (x1 : Vec F S5000x128 .f32) (x2 : Vec F S128x64 .f32) (x3 : Vec F S1x64 .f32) (x4 : Vec F S128x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_transform_kernel i arg1 harg1 arg2 harg2 arg3 harg3 arg4 harg4 arg5 harg5 arg6 harg6) K := by
  simp only [cc0__sage_transform_kernel_eq_skeleton]; unfold cc0__sage_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- The body reads each input window at its block of the array. -/
theorem before0 (c : Dev nD) (t : Fin cfg0.N) :
    (∀ d, (dat0 V c).before 0 t d = iblk0 V c 0 t)
    ∧ (∀ d, (dat0 V c).before 1 t d = iblk0 V c 1 t)
    ∧ (∀ d, (dat0 V c).before 2 t d = iblk0 V c 2 t)
    ∧ (∀ d, (dat0 V c).before 3 t d = iblk0 V c 3 t)
    ∧ (∀ d, (dat0 V c).before 4 t d = iblk0 V c 4 t) := by
  refine ⟨?_, ?_, ?_, ?_, ?_⟩ <;> exact fun d =>
    ((dat0 V c).before_in_eq_fetched _ rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [(before0 V c t).1, (before0 V c t).2.1, (before0 V c t).2.2.1, (before0 V c t).2.2.2.1, (before0 V c t).2.2.2.2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  iframe H0 H1 H2 H3 H4
  isplitl [H5]; · iexists _; iexact H5
  iintro ⟨H0, H1, H2, H3, H4, H5⟩
  iframe

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := BI.Entails.refl _
theorem hout0 (c : Dev nD) : (dat0 V c).Φ (Fin.last cfg0.N) ⊢ (Pipeline.ΦA spec0 c : sProp 𝕄) := BI.Entails.refl _

end Region0

end Cert.Kernel.Gen

end
-- ==== Proof.K.Sage1.lean ====
/- Region 1, layer 2's linear transform, one row block of 5000 nodes per grid point: the output block at a point is
   `agg · Wl + bl + x · Wr` of the five input blocks at that point. -/
import proofs.«409739_j33028298506661_1_alg».proof.Proof.Gen.Kernel.Launch
import proofs.«409739_j33028298506661_1_alg».proof.Proof.Gen.Kernel.Skeleton
import proofs.«409739_j33028298506661_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x64 := Rect.unit (s := S5000x64) ![0, 0] S5000x64.size inb_S5000x64_S5000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0
abbrev r1_o : Rect S5000x64 := Rect.unit (s := S5000x64) ![0, 0] S5000x64.size inb_S5000x64_S5000x64_0_0

def out1_5 (x0 : Vec F S5000x64 .f32) (x1 : Vec F S5000x64 .f32) (x2 : Vec F S64x64 .f32) (x3 : Vec F S1x64 .f32) (x4 : Vec F S64x64 .f32) : Vec F S5000x64 .f32 :=
  View.canon [⟨r1_o, k1_pay1 (View.ld x0 r1_a) (View.ld x1 r1_a) (View.ld x2 r1_w) (View.ld x4 r1_w) (View.ld x3 r1_b)⟩]

theorem cover1_5 (p0 : Vec F S5000x64 .f32) (y : S5000x64.Idx) :
    ∃ pc ∈ ([⟨r1_o, p0⟩] : List (View.Piece (Elt F) S5000x64 .f32)), y ∈ pc.1.set :=
  View.cover_of_tiled [⟨r1_o, p0⟩] S5000x64.size (by rfl) y

set_option maxHeartbeats 1000000 in
/-- The body's triple: it computes the payload of its inputs and changes nothing else. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (x0 : Vec F S5000x64 .f32) (x1 : Vec F S5000x64 .f32) (x2 : Vec F S64x64 .f32) (x3 : Vec F S1x64 .f32) (x4 : Vec F S64x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_transform_kernel i arg1 harg1 arg2 harg2 arg3 harg3 arg4 harg4 arg5 harg5 arg6 harg6) K := by
  simp only [cc1__sage_transform_kernel_eq_skeleton]; unfold cc1__sage_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- The body reads each input window at its block of the array. -/
theorem before1 (c : Dev nD) (t : Fin cfg1.N) :
    (∀ d, (dat1 V c).before 0 t d = iblk1 V c 0 t)
    ∧ (∀ d, (dat1 V c).before 1 t d = iblk1 V c 1 t)
    ∧ (∀ d, (dat1 V c).before 2 t d = iblk1 V c 2 t)
    ∧ (∀ d, (dat1 V c).before 3 t d = iblk1 V c 3 t)
    ∧ (∀ d, (dat1 V c).before 4 t d = iblk1 V c 4 t) := by
  refine ⟨?_, ?_, ?_, ?_, ?_⟩ <;> exact fun d =>
    ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [(before1 V c t).1, (before1 V c t).2.1, (before1 V c t).2.2.1, (before1 V c t).2.2.2.1, (before1 V c t).2.2.2.2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := BI.Entails.refl _
theorem hout1 (c : Dev nD) : (dat1 V c).Φ (Fin.last cfg1.N) ⊢ (Pipeline.ΦA spec1 c : sProp 𝕄) := BI.Entails.refl _

end Region1

end Cert.Kernel.Gen

end
-- ==== Proof.K.Sage2.lean ====
/- Region 2, layer 3's linear transform, one row block of 5000 nodes per grid point: the output block at a point is
   `agg · Wl + bl + x · Wr` of the five input blocks at that point. -/
import proofs.«409739_j33028298506661_1_alg».proof.Proof.Gen.Kernel.Launch
import proofs.«409739_j33028298506661_1_alg».proof.Proof.Gen.Kernel.Skeleton
import proofs.«409739_j33028298506661_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S5000x64 := Rect.unit (s := S5000x64) ![0, 0] S5000x64.size inb_S5000x64_S5000x64_0_0
abbrev r2_w : Rect S64x64 := Rect.unit (s := S64x64) ![0, 0] S64x64.size inb_S64x64_S64x64_0_0
abbrev r2_b : Rect S1x64 := Rect.unit (s := S1x64) ![0, 0] S1x64.size inb_S1x64_S1x64_0_0
abbrev r2_o : Rect S5000x64 := Rect.unit (s := S5000x64) ![0, 0] S5000x64.size inb_S5000x64_S5000x64_0_0

def out2_5 (x0 : Vec F S5000x64 .f32) (x1 : Vec F S5000x64 .f32) (x2 : Vec F S64x64 .f32) (x3 : Vec F S1x64 .f32) (x4 : Vec F S64x64 .f32) : Vec F S5000x64 .f32 :=
  View.canon [⟨r2_o, k2_pay1 (View.ld x0 r2_a) (View.ld x1 r2_a) (View.ld x2 r2_w) (View.ld x4 r2_w) (View.ld x3 r2_b)⟩]

theorem cover2_5 (p0 : Vec F S5000x64 .f32) (y : S5000x64.Idx) :
    ∃ pc ∈ ([⟨r2_o, p0⟩] : List (View.Piece (Elt F) S5000x64 .f32)), y ∈ pc.1.set :=
  View.cover_of_tiled [⟨r2_o, p0⟩] S5000x64.size (by rfl) y

set_option maxHeartbeats 1000000 in
/-- The body's triple: it computes the payload of its inputs and changes nothing else. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (x0 : Vec F S5000x64 .f32) (x1 : Vec F S5000x64 .f32) (x2 : Vec F S64x64 .f32) (x3 : Vec F S1x64 .f32) (x4 : Vec F S64x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__sage_transform_kernel i arg1 harg1 arg2 harg2 arg3 harg3 arg4 harg4 arg5 harg5 arg6 harg6) K := by
  simp only [cc2__sage_transform_kernel_eq_skeleton]; unfold cc2__sage_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- The body reads each input window at its block of the array. -/
theorem before2 (c : Dev nD) (t : Fin cfg2.N) :
    (∀ d, (dat2 V c).before 0 t d = iblk2 V c 0 t)
    ∧ (∀ d, (dat2 V c).before 1 t d = iblk2 V c 1 t)
    ∧ (∀ d, (dat2 V c).before 2 t d = iblk2 V c 2 t)
    ∧ (∀ d, (dat2 V c).before 3 t d = iblk2 V c 3 t)
    ∧ (∀ d, (dat2 V c).before 4 t d = iblk2 V c 4 t) := by
  refine ⟨?_, ?_, ?_, ?_, ?_⟩ <;> exact fun d =>
    ((dat2 V c).before_in_eq_fetched _ rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [(before2 V c t).1, (before2 V c t).2.1, (before2 V c t).2.2.1, (before2 V c t).2.2.2.1, (before2 V c t).2.2.2.2]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  iframe H0 H1 H2 H3 H4
  isplitl [H5]; · iexists _; iexact H5
  iintro ⟨H0, H1, H2, H3, H4, H5⟩
  iframe

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := BI.Entails.refl _
theorem hout2 (c : Dev nD) : (dat2 V c).Φ (Fin.last cfg2.N) ⊢ (Pipeline.ΦA spec2 c : sProp 𝕄) := BI.Entails.refl _

end Region2

end Cert.Kernel.Gen

end
-- ==== Proof.K.Pool.lean ====
/- Region 3, the pooled sums: a scratch accumulator carried over ten row blocks of 5000 nodes; zeroed at the first point, each
   point adds its block's one-hot product, and the last point copies the sum out. -/
import proofs.«409739_j33028298506661_1_alg».proof.Proof.Gen.Kernel.Launch
import proofs.«409739_j33028298506661_1_alg».proof.Proof.Gen.Kernel.Skeleton
import proofs.«409739_j33028298506661_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The running pooled sum: what the accumulator holds after the body at point `n`. -/
def acc3 (c : Dev nD) : (n : ℕ) → n < cfg3.N → Vec F S256x64 .f32
  | 0, hn => k3_pay2 (iblk3 V c 1 ⟨0, hn⟩) (iblk3 V c 0 ⟨0, hn⟩) (k3_pay1 (F := F))
  | n + 1, hn => k3_pay2 (iblk3 V c 1 ⟨n + 1, hn⟩) (iblk3 V c 0 ⟨n + 1, hn⟩) (acc3 c n (Nat.lt_of_succ_lt hn))

theorem acc3_zero (c : Dev nD) (h : 0 < cfg3.N) :
    acc3 V c 0 h = k3_pay2 (iblk3 V c 1 ⟨0, h⟩) (iblk3 V c 0 ⟨0, h⟩) (k3_pay1 (F := F)) := rfl

theorem acc3_succ (c : Dev nD) (n : ℕ) (h : n + 1 < cfg3.N) :
    acc3 V c (n + 1) h = k3_pay2 (iblk3 V c 1 ⟨n + 1, h⟩) (iblk3 V c 0 ⟨n + 1, h⟩) (acc3 V c n (Nat.lt_of_succ_lt h)) := rfl

abbrev scM3 : Memref sig .tc .vmem S256x64 .f32 := Memref.whole cc3_scratch0

/-- The region invariant before position `n`: after the first point it holds the accumulator at the running sum. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0])
      ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem q_eq3 (c : Dev nD) (w : Fin cfg3.W) : (dat3 V c).q w = fullShare := by dsimp only [dat3]
theorem owed_eq3 (c : Dev nD) (t : Fin (cfg3.N + 1)) : (dat3 V c).owed t = 0 := by dsimp only [dat3]
theorem recorded_eq3 (c : Dev nD) (t : Fin (cfg3.N + 1)) : (dat3 V c).recorded t = Set.univ := rfl

abbrev first3 (i : grid3.Coords) : Prop := (Scalar.cmpi .ne (Scalar.extui (Scalar.cmpi .eq (BitVec.ofNat 32 (i 0).val) 0#32)) 0#32) = 1#1

theorem first3_iff : ∀ t : Fin cfg3.N, first3 (grid3.coords t) ↔ t.val % 10 = 0 :=
  (by decide +kernel : ∀ t : Fin grid3.N, first3 (grid3.coords t) ↔ t.val % 10 = 0)

abbrev last3 (i : grid3.Coords) : Prop := k3_cond2 i = 1#1

theorem last3_iff : ∀ t : Fin cfg3.N, last3 (grid3.coords t) ↔ t.val % 10 = 9 :=
  (by decide +kernel : ∀ t : Fin grid3.N, last3 (grid3.coords t) ↔ t.val % 10 = 9)

theorem live3_0 : ∀ t : Fin cfg3.N, cfg3.idle 0 (grid3.coords t) = false := by decide +kernel
theorem live3_1 : ∀ t : Fin cfg3.N, cfg3.idle 1 (grid3.coords t) = false := by decide +kernel

theorem idle3_2 : ∀ t : Fin cfg3.N, ¬last3 (grid3.coords t) → cfg3.idle 2 (grid3.coords t) = true := by decide +kernel

theorem noFlush3_2 : ∀ t : Fin cfg3.N, ¬last3 (grid3.coords t) → (cfg3.win 2).flush t = false := by decide +kernel

theorem live3_2 : ∀ t : Fin cfg3.N, last3 (grid3.coords t) → cfg3.idle 2 (grid3.coords t) = false := by decide +kernel

abbrev r3_h : Rect S5000x64 := Rect.unit (s := S5000x64) ![0, 0] S5000x64.size inb_S5000x64_S5000x64_0_0
abbrev r3_b : Rect S5000x1 := Rect.unit (s := S5000x1) ![0, 0] S5000x1.size inb_S5000x1_S5000x1_0_0
abbrev r3_a : Rect S256x64 := Rect.unit (s := S256x64) ![0, 0] S256x64.size inb_S256x64_S256x64_0_0

theorem zero_off3 : (![0, 0] : Fin 2 → Nat) = fun _ => 0 := funext fun a => by fin_cases a <;> rfl

theorem cover3 (p : Vec F S256x64 .f32) (L : List (View.Piece (Elt F) S256x64 .f32)) (y : S256x64.Idx) :
    ∃ pc ∈ ((⟨r3_a, p⟩ : View.Piece (Elt F) S256x64 .f32) :: L), y ∈ pc.1.set :=
  ⟨_, List.mem_cons_self, View.mem_set_unit_zero zero_off3 inb_S256x64_S256x64_0_0 y⟩

set_option maxHeartbeats 1000000 in

theorem sound_kernel3_first (c : Dev nD) (E : Set ℕ) (i : grid3.Coords)
    (arg1 : Memref sig .tc .vmem S5000x64 .f32) (harg1 : arg1.IsWhole) (arg2 : Memref sig .tc .vmem S5000x1 .i32) (harg2 : arg2.IsWhole)
    (arg3 : Memref sig .tc .vmem S256x64 .f32) (harg3 : arg3.IsWhole) (arg4 : Memref sig .tc .vmem S256x64 .f32) (harg4 : arg4.IsWhole)
    (hc0 : first3 i) (hc1 : ¬last3 i)
    (xh : Vec F S5000x64 .f32) (xb : Vec F S5000x1 .i32) (xo : Vec F S256x64 .f32)
    (K : PUnit → sProp 𝕄) :
    iprop(owns (c : Thread nD τ) arg1 fullShare xh ∗ owns (c : Thread nD τ) arg2 fullShare xb
        ∗ owns (c : Thread nD τ) arg3 fullShare xo ∗ (∃ d, owns (c : Thread nD τ) arg4 fullShare d)
        ∗ (iprop(owns (c : Thread nD τ) arg1 fullShare xh ∗ owns (c : Thread nD τ) arg2 fullShare xb
            ∗ owns (c : Thread nD τ) arg3 fullShare xo ∗ owns (c : Thread nD τ) arg4 fullShare (k3_pay2 xb xh (k3_pay1 (F := F)))) -∗ K ⟨⟩))
      ⊢ wp frame (wpE (defs₀ (F := F)) Variants.none c none) E (cc3__pool_sum_kernel i arg1 harg1 arg2 harg2 arg3 harg3 arg4 harg4) K := by
  simp only [cc3__pool_sum_kernel_eq_skeleton]; unfold cc3__pool_sum_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover3 _ _), View.canon_cons_unit_zero zero_off3, View.readCov_unit_zero _ zero_off3]
  simp only [View.readAt_eq_ld, View.ld_unit_zero (S := S5000x1) zero_off3, View.ld_unit_zero (S := S5000x64) zero_off3, View.ld_unit_zero (S := S256x64) zero_off3]

set_option maxHeartbeats 1000000 in

theorem sound_kernel3_mid (c : Dev nD) (E : Set ℕ) (i : grid3.Coords)
    (arg1 : Memref sig .tc .vmem S5000x64 .f32) (harg1 : arg1.IsWhole) (arg2 : Memref sig .tc .vmem S5000x1 .i32) (harg2 : arg2.IsWhole)
    (arg3 : Memref sig .tc .vmem S256x64 .f32) (harg3 : arg3.IsWhole) (arg4 : Memref sig .tc .vmem S256x64 .f32) (harg4 : arg4.IsWhole)
    (hc0 : ¬first3 i) (hc1 : ¬last3 i)
    (xh : Vec F S5000x64 .f32) (xb : Vec F S5000x1 .i32) (xo : Vec F S256x64 .f32) (xs : Vec F S256x64 .f32)
    (K : PUnit → sProp 𝕄) :
    iprop(owns (c : Thread nD τ) arg1 fullShare xh ∗ owns (c : Thread nD τ) arg2 fullShare xb
        ∗ owns (c : Thread nD τ) arg3 fullShare xo ∗ owns (c : Thread nD τ) arg4 fullShare xs
        ∗ (iprop(owns (c : Thread nD τ) arg1 fullShare xh ∗ owns (c : Thread nD τ) arg2 fullShare xb
            ∗ owns (c : Thread nD τ) arg3 fullShare xo ∗ owns (c : Thread nD τ) arg4 fullShare (k3_pay2 xb xh xs)) -∗ K ⟨⟩))
      ⊢ wp frame (wpE (defs₀ (F := F)) Variants.none c none) E (cc3__pool_sum_kernel i arg1 harg1 arg2 harg2 arg3 harg3 arg4 harg4) K := by
  simp only [cc3__pool_sum_kernel_eq_skeleton]; unfold cc3__pool_sum_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover3 _ _), View.canon_unit_zero zero_off3]
  simp only [View.readAt_eq_ld, View.ld_unit_zero (S := S5000x1) zero_off3, View.ld_unit_zero (S := S5000x64) zero_off3, View.ld_unit_zero (S := S256x64) zero_off3]

set_option maxHeartbeats 1000000 in

theorem sound_kernel3_last (c : Dev nD) (E : Set ℕ) (i : grid3.Coords)
    (arg1 : Memref sig .tc .vmem S5000x64 .f32) (harg1 : arg1.IsWhole) (arg2 : Memref sig .tc .vmem S5000x1 .i32) (harg2 : arg2.IsWhole)
    (arg3 : Memref sig .tc .vmem S256x64 .f32) (harg3 : arg3.IsWhole) (arg4 : Memref sig .tc .vmem S256x64 .f32) (harg4 : arg4.IsWhole)
    (hc0 : ¬first3 i) (hc1 : last3 i)
    (xh : Vec F S5000x64 .f32) (xb : Vec F S5000x1 .i32) (xs : Vec F S256x64 .f32)
    (K : PUnit → sProp 𝕄) :
    iprop(owns (c : Thread nD τ) arg1 fullShare xh ∗ owns (c : Thread nD τ) arg2 fullShare xb
        ∗ (∃ d, owns (c : Thread nD τ) arg3 fullShare d) ∗ owns (c : Thread nD τ) arg4 fullShare xs
        ∗ (iprop(owns (c : Thread nD τ) arg1 fullShare xh ∗ owns (c : Thread nD τ) arg2 fullShare xb
            ∗ owns (c : Thread nD τ) arg3 fullShare (k3_pay2 xb xh xs) ∗ owns (c : Thread nD τ) arg4 fullShare (k3_pay2 xb xh xs)) -∗ K ⟨⟩))
      ⊢ wp frame (wpE (defs₀ (F := F)) Variants.none c none) E (cc3__pool_sum_kernel i arg1 harg1 arg2 harg2 arg3 harg3 arg4 harg4) K := by
  simp only [cc3__pool_sum_kernel_eq_skeleton]; unfold cc3__pool_sum_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover3 _ _), View.canon_unit_zero zero_off3, View.readCov_unit_zero _ zero_off3]
    simp only [View.readAt_eq_ld, View.ld_unit_zero (S := S5000x1) zero_off3, View.ld_unit_zero (S := S5000x64) zero_off3, View.ld_unit_zero (S := S256x64) zero_off3]
  iexists _; isplitr
  swap; · iexact H3
  ipureintro
  sl_unfold_words
  rw [View.read_writes_eq_canon _ _ _ (cover3 _ _), View.canon_unit_zero zero_off3]
  simp only [View.readAt_eq_ld, View.ld_unit_zero (S := S5000x1) zero_off3, View.ld_unit_zero (S := S5000x64) zero_off3, View.ld_unit_zero (S := S256x64) zero_off3]

/-- The body reads each input window at its block of the array. -/
theorem before3 (c : Dev nD) (t : Fin cfg3.N) :
    (∀ d, (dat3 V c).before 0 t d = iblk3 V c 0 t)
    ∧ (∀ d, (dat3 V c).before 1 t d = iblk3 V c 1 t) := by
  refine ⟨?_, ?_⟩ <;> exact fun d =>
    ((dat3 V c).before_in_eq_fetched _ rfl (fun _ => rfl) (fun _ _ _ => rfl) (fun _ => rfl) t d).trans rfl

theorem acc3_first (c : Dev nD) (t : Fin cfg3.N) (hz : t.val = 0) :
    acc3 V c t.val t.isLt = k3_pay2 (iblk3 V c 1 t) (iblk3 V c 0 t) (k3_pay1 (F := F)) := by
  obtain ⟨n, hn⟩ := t
  cases n with
  | zero => rfl
  | succ n => exact absurd hz (Nat.succ_ne_zero n)

theorem acc3_later (c : Dev nD) (t : Fin cfg3.N) (hz : t.val ≠ 0) :
    acc3 V c t.val t.isLt = k3_pay2 (iblk3 V c 1 t) (iblk3 V c 0 t) (acc3 V c (t.val - 1) (Nat.lt_of_le_of_lt (Nat.sub_le _ _) t.isLt)) := by
  obtain ⟨n, hn⟩ := t
  cases n with
  | zero => exact absurd rfl hz
  | succ n => rfl

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0])
      ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0])
      ∗ (∃ r, prngReg c r)) := by
  cases n with
  | zero => exact absurd rfl hz
  | succ n => rfl

theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3, owns_whole]; try rfl

theorem PhiS3_castSucc (c : Dev nD) (t : Fin cfg3.N) :
    (dat3 V c).Φ t.castSucc = PhiS3 V c t.val (Nat.le_of_lt t.isLt) := by
  dsimp only [dat3]; simp only [Fin.coe_castSucc]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point, by the point's case: first, last, or in between. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [(before3 V c t).1, (before3 V c t).2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [live3_0 t], after3_0]
  rw [show (dat3 V c).leavesExact 1 t = owns (c : Thread nD τ) (st3_1 t) fullShare ((dat3 V c).after 1 t) from by
    unfold Dat.leavesExact; rw [live3_1 t], after3_1]
  have hN : t.val < 10 := lt_of_lt_of_eq t.isLt (show cfg3.N = 10 from N_3)
  by_cases h0 : t.val % 10 = 0
  · have hz : t.val = 0 := by omega
    have h1 : ¬t.val % 10 = 9 := by omega
    have hc0 : first3 (grid3.coords t) := (first3_iff t).mpr h0
    have hc1 : ¬last3 (grid3.coords t) := fun h => h1 ((last3_iff t).mp h)
    rw [Dat.leavesExact_idle (dat3 V c) 2 t (idle3_2 t hc1) (noFlush3_2 t hc1)]
    rw [PhiS3_castSucc V c t, PhiS3_zero V c _ _ hz, PhiA3_eq, acc3_first V c t hz]
    iintro ⟨⟨⟨HS, HR⟩, Hg⟩, Ho, ⟨%d0, H0⟩, ⟨%d1, H1⟩, ⟨%d2, H2⟩⟩
    iapply (sound_kernel3_first c Set.univ (grid3.coords t) _ _ _ _ _ _ _ _ hc0 hc1 (iblk3 V c 0 t) (iblk3 V c 1 t) ((dat3 V c).before 2 t d2) _)
    iframe H0 H1 H2 HS
    iintro ⟨H0, H1, H2, HS⟩
    iframe HS HR Hg Ho H0 H1
    iexists _; iexact H2
  · have hz : t.val ≠ 0 := fun h => h0 (by rw [h])
    have hc0 : ¬first3 (grid3.coords t) := fun h => h0 ((first3_iff t).mp h)
    by_cases h1 : t.val % 10 = 9
    · have hc1 : last3 (grid3.coords t) := (last3_iff t).mpr h1
      rw [show (dat3 V c).leavesExact 2 t = owns (c : Thread nD τ) (st3_2 t) fullShare ((dat3 V c).after 2 t) from by
        unfold Dat.leavesExact; rw [live3_2 t hc1], after3_2]
      rw [PhiS3_castSucc V c t, PhiS3_pos V c _ _ hz, acc3_later V c t hz]
      iintro ⟨⟨⟨HS, HR⟩, Hg⟩, Ho, ⟨%d0, H0⟩, ⟨%d1, H1⟩, ⟨%d2, H2⟩⟩
      iapply (sound_kernel3_last c Set.univ (grid3.coords t) _ _ _ _ _ _ _ _ hc0 hc1 (iblk3 V c 0 t) (iblk3 V c 1 t) (acc3 V c (t.val - 1) (Nat.lt_of_le_of_lt (Nat.sub_le _ _) t.isLt)) _)
      iframe H0 H1
      isplitl [H2]; · iexists _; iexact H2
      iframe HS
      iintro ⟨H0, H1, H2, HS⟩
      iframe
    · have hc1 : ¬last3 (grid3.coords t) := fun h => h1 ((last3_iff t).mp h)
      rw [Dat.leavesExact_idle (dat3 V c) 2 t (idle3_2 t hc1) (noFlush3_2 t hc1)]
      rw [PhiS3_castSucc V c t, PhiS3_pos V c _ _ hz, acc3_later V c t hz]
      iintro ⟨⟨⟨HS, HR⟩, Hg⟩, Ho, ⟨%d0, H0⟩, ⟨%d1, H1⟩, ⟨%d2, H2⟩⟩
      iapply (sound_kernel3_mid c Set.univ (grid3.coords t) _ _ _ _ _ _ _ _ hc0 hc1 (iblk3 V c 0 t) (iblk3 V c 1 t) ((dat3 V c).before 2 t d2) (acc3 V c (t.val - 1) (Nat.lt_of_le_of_lt (Nat.sub_le _ _) t.isLt)) _)
      iframe H0 H1 H2 HS
      iintro ⟨H0, H1, H2, HS⟩
      iframe HS HR Hg Ho H0 H1
      iexists _; iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

theorem hout3 (c : Dev nD) : (dat3 V c).Φ (Fin.last cfg3.N) ⊢ (Pipeline.ΦA spec3 c : sProp 𝕄) :=
  Phi_out3 V c _ (by rw [Fin.val_last]; have : cfg3.N = 10 := N_3; omega)

end Region3

end Cert.Kernel.Gen

end
-- ==== Proof.K.Mlp.lean ====
/- Region 4, the perceptron: one grid point; the output block is the four-layer perceptron, with batch normalisation, of the
   pooled means and the fourteen weight, bias and scale blocks. -/
import proofs.«409739_j33028298506661_1_alg».proof.Proof.Gen.Kernel.Launch
import proofs.«409739_j33028298506661_1_alg».proof.Proof.Gen.Kernel.Skeleton
import proofs.«409739_j33028298506661_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_x : Rect S256x64 := Rect.unit (s := S256x64) ![0, 0] S256x64.size inb_S256x64_S256x64_0_0
abbrev r4_w1 : Rect S64x256 := Rect.unit (s := S64x256) ![0, 0] S64x256.size inb_S64x256_S64x256_0_0
abbrev r4_b1 : Rect S1x256 := Rect.unit (s := S1x256) ![0, 0] S1x256.size inb_S1x256_S1x256_0_0
abbrev r4_p : Rect S256x128 := Rect.unit (s := S256x128) ![0, 0] S256x128.size inb_S256x128_S256x128_0_0
abbrev r4_b2 : Rect S1x128 := Rect.unit (s := S1x128) ![0, 0] S1x128.size inb_S1x128_S1x128_0_0
abbrev r4_w3 : Rect S128x64 := Rect.unit (s := S128x64) ![0, 0] S128x64.size inb_S128x64_S128x64_0_0
abbrev r4_b3 : Rect S1x64 := Rect.unit (s := S1x64) ![0, 0] S1x64.size inb_S1x64_S1x64_0_0
abbrev r4_w4 : Rect S64x10 := Rect.unit (s := S64x10) ![0, 0] S64x10.size inb_S64x10_S64x10_0_0
abbrev r4_b4 : Rect S1x10 := Rect.unit (s := S1x10) ![0, 0] S1x10.size inb_S1x10_S1x10_0_0
abbrev r4_o : Rect S256x10 := Rect.unit (s := S256x10) ![0, 0] S256x10.size inb_S256x10_S256x10_0_0

def out4_15 (x0 : Vec F S256x64 .f32) (x1 : Vec F S64x256 .f32) (x2 x3 x4 : Vec F S1x256 .f32) (x5 : Vec F S256x128 .f32)
    (x6 x7 x8 : Vec F S1x128 .f32) (x9 : Vec F S128x64 .f32) (x10 x11 x12 : Vec F S1x64 .f32) (x13 : Vec F S64x10 .f32)
    (x14 : Vec F S1x10 .f32) : Vec F S256x10 .f32 :=
  View.canon [⟨r4_o, k4_pay1
    (k4_pay4 (k4_pay2 (View.ld x0 r4_x) (View.ld x1 r4_w1) (View.ld x2 r4_b1) (View.ld x3 r4_b1) (View.ld x4 r4_b1))
      (k4_pay3 (View.ld x5 r4_p)) (constant S256x128 .f32 0x00000000#32)
      (View.ld x6 r4_b2) (View.ld x7 r4_b2) (View.ld x8 r4_b2) (View.ld x9 r4_w3) (View.ld x10 r4_b3))
    (k4_pay5 (View.ld x11 r4_b3)) (View.ld x12 r4_b3) (View.ld x13 r4_w4) (View.ld x14 r4_b4)⟩]

theorem cover4_15 (p0 : Vec F S256x10 .f32) (y : S256x10.Idx) :
    ∃ pc ∈ ([⟨r4_o, p0⟩] : List (View.Piece (Elt F) S256x10 .f32)), y ∈ pc.1.set :=
  View.cover_of_tiled [⟨r4_o, p0⟩] S256x10.size (by rfl) y

set_option maxHeartbeats 4000000 in

theorem sound_kernel4 (c : Dev nD) (E : Set ℕ) (i : grid4.Coords)
    (arg1 : Memref sig .tc .vmem S256x64 .f32) (harg1 : arg1.IsWhole) (arg2 : Memref sig .tc .vmem S64x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S256x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S128x64 .f32) (harg10 : arg10.IsWhole)
    (arg11 : Memref sig .tc .vmem S1x64 .f32) (harg11 : arg11.IsWhole) (arg12 : Memref sig .tc .vmem S1x64 .f32) (harg12 : arg12.IsWhole)
    (arg13 : Memref sig .tc .vmem S1x64 .f32) (harg13 : arg13.IsWhole) (arg14 : Memref sig .tc .vmem S64x10 .f32) (harg14 : arg14.IsWhole)
    (arg15 : Memref sig .tc .vmem S1x10 .f32) (harg15 : arg15.IsWhole) (arg16 : Memref sig .tc .vmem S256x10 .f32) (harg16 : arg16.IsWhole)
    (x0 : Vec F S256x64 .f32) (x1 : Vec F S64x256 .f32) (x2 x3 x4 : Vec F S1x256 .f32) (x5 : Vec F S256x128 .f32)
    (x6 x7 x8 : Vec F S1x128 .f32) (x9 : Vec F S128x64 .f32) (x10 x11 x12 : Vec F S1x64 .f32) (x13 : Vec F S64x10 .f32)
    (x14 : Vec F S1x10 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ (∃ d, owns (c : Thread nD τ) arg16 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare (out4_15 x0 x1 x2 x3 x4 x5 x6 x7 x8 x9 x10 x11 x12 x13 x14)) -∗ K ⟨⟩))
      ⊢ wp frame (wpE (defs₀ (F := F)) Variants.none c none) E (cc4__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc4__mlp_kernel_eq_skeleton]; unfold cc4__mlp_kernel_skel
  simp only [k4_part1_eq_skeleton, k4_part2_eq_skeleton]; unfold k4_part1_skel k4_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0; subst hf1; subst hf2; subst hf3; subst hf4; subst hf5; subst hf6; subst hf7; subst hf8; subst hf9
  subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover4_15 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => iblk4 V c 14 t
    | ⟨15, _⟩ => out4_15 (iblk4 V c 0 t) (iblk4 V c 1 t) (iblk4 V c 2 t) (iblk4 V c 3 t) (iblk4 V c 4 t) (iblk4 V c 5 t)
        (iblk4 V c 6 t) (iblk4 V c 7 t) (iblk4 V c 8 t) (iblk4 V c 9 t) (iblk4 V c 10 t) (iblk4 V c 11 t) (iblk4 V c 12 t)
        (iblk4 V c 13 t) (iblk4 V c 14 t)
    | ⟨_ + 16, h⟩ => absurd h (Nat.not_lt.2 (Nat.le_add_left _ _))
  Φ _ := Pipeline.ΦA spec4 c
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := by
  dsimp only [dat4]
theorem owed_eq4 (c : Dev nD) (t : Fin (cfg4.N + 1)) : (dat4 V c).owed t = 0 := by
  dsimp only [dat4]
theorem recorded_eq4 (c : Dev nD) (t : Fin (cfg4.N + 1)) : (dat4 V c).recorded t = Set.univ := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = iblk4 V c 11 t := by dsimp only [dat4]
theorem after4_12 (c : Dev nD) (t : Fin cfg4.N) : (dat4 V c).after 12 t = iblk4 V c 12 t := by dsimp only [dat4]
theorem after4_13 (c : Dev nD) (t : Fin cfg4.N) : (dat4 V c).after 13 t = iblk4 V c 13 t := by dsimp only [dat4]
theorem after4_14 (c : Dev nD) (t : Fin cfg4.N) : (dat4 V c).after 14 t = iblk4 V c 14 t := by dsimp only [dat4]
theorem after4_15 (c : Dev nD) (t : Fin cfg4.N) :
    (dat4 V c).after 15 t = out4_15 (iblk4 V c 0 t) (iblk4 V c 1 t) (iblk4 V c 2 t) (iblk4 V c 3 t) (iblk4 V c 4 t) (iblk4 V c 5 t)
      (iblk4 V c 6 t) (iblk4 V c 7 t) (iblk4 V c 8 t) (iblk4 V c 9 t) (iblk4 V c 10 t) (iblk4 V c 11 t) (iblk4 V c 12 t)
      (iblk4 V c 13 t) (iblk4 V c 14 t) := by dsimp only [dat4]

/-- The body reads each input window at its block of the array (the fifteen windows, five at a time). -/
theorem before4a (c : Dev nD) (t : Fin cfg4.N) :
    (∀ d, (dat4 V c).before 0 t d = iblk4 V c 0 t)
    ∧ (∀ d, (dat4 V c).before 1 t d = iblk4 V c 1 t)
    ∧ (∀ d, (dat4 V c).before 2 t d = iblk4 V c 2 t)
    ∧ (∀ d, (dat4 V c).before 3 t d = iblk4 V c 3 t)
    ∧ (∀ d, (dat4 V c).before 4 t d = iblk4 V c 4 t) := by
  refine ⟨?_, ?_, ?_, ?_, ?_⟩ <;> exact fun d =>
    ((dat4 V c).before_in_eq_fetched _ rfl (fun _ => rfl) (fun _ _ _ => rfl)
      (fun t => by simp only [after4_0, after4_1, after4_2, after4_3, after4_4]; unfold Dat.blockOf iblk4; rw [A_eq4]; try rfl) t d).trans
      (by unfold Dat.fetched Dat.blockOf iblk4; rw [A_eq4]; try rfl)
theorem before4b (c : Dev nD) (t : Fin cfg4.N) :
    (∀ d, (dat4 V c).before 5 t d = iblk4 V c 5 t)
    ∧ (∀ d, (dat4 V c).before 6 t d = iblk4 V c 6 t)
    ∧ (∀ d, (dat4 V c).before 7 t d = iblk4 V c 7 t)
    ∧ (∀ d, (dat4 V c).before 8 t d = iblk4 V c 8 t)
    ∧ (∀ d, (dat4 V c).before 9 t d = iblk4 V c 9 t) := by
  refine ⟨?_, ?_, ?_, ?_, ?_⟩ <;> exact fun d =>
    ((dat4 V c).before_in_eq_fetched _ rfl (fun _ => rfl) (fun _ _ _ => rfl)
      (fun t => by simp only [after4_5, after4_6, after4_7, after4_8, after4_9]; unfold Dat.blockOf iblk4; rw [A_eq4]; try rfl) t d).trans
      (by unfold Dat.fetched Dat.blockOf iblk4; rw [A_eq4]; try rfl)
theorem before4c (c : Dev nD) (t : Fin cfg4.N) :
    (∀ d, (dat4 V c).before 10 t d = iblk4 V c 10 t)
    ∧ (∀ d, (dat4 V c).before 11 t d = iblk4 V c 11 t)
    ∧ (∀ d, (dat4 V c).before 12 t d = iblk4 V c 12 t)
    ∧ (∀ d, (dat4 V c).before 13 t d = iblk4 V c 13 t)
    ∧ (∀ d, (dat4 V c).before 14 t d = iblk4 V c 14 t) := by
  refine ⟨?_, ?_, ?_, ?_, ?_⟩ <;> exact fun d =>
    ((dat4 V c).before_in_eq_fetched _ rfl (fun _ => rfl) (fun _ _ _ => rfl)
      (fun t => by simp only [after4_10, after4_11, after4_12, after4_13, after4_14]; unfold Dat.blockOf iblk4; rw [A_eq4]; try rfl) t d).trans
      (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d))
    ∗ (∃ d, owns (c : Thread nD τ) (st4_13 t) fullShare ((dat4 V c).before 13 t d))
    ∗ (∃ d, owns (c : Thread nD τ) (st4_14 t) fullShare ((dat4 V c).before 14 t d))
    ∗ (∃ d, owns (c : Thread nD τ) (st4_15 t) fullShare ((dat4 V c).before 15 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t)
    ∗ owns (c : Thread nD τ) (st4_13 t) fullShare ((dat4 V c).after 13 t)
    ∗ owns (c : Thread nD τ) (st4_14 t) fullShare ((dat4 V c).after 14 t)
    ∗ owns (c : Thread nD τ) (st4_15 t) fullShare ((dat4 V c).after 15 t))

set_option maxHeartbeats 1000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [(before4a V c t).1, (before4a V c t).2.1, (before4a V c t).2.2.1, (before4a V c t).2.2.2.1, (before4a V c t).2.2.2.2, (before4b V c t).1, (before4b V c t).2.1, (before4b V c t).2.2.1, (before4b V c t).2.2.2.1, (before4b V c t).2.2.2.2, (before4c V c t).1, (before4c V c t).2.1, (before4c V c t).2.2.1, (before4c V c t).2.2.2.1, (before4c V c t).2.2.2.2]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12, after4_13, after4_14, after4_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel4 c Set.univ _ _ _ _ _ _ _ _ _ _ _ _ _ _ _ _ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) (iblk4 V c 7 t)
    (iblk4 V c 8 t) (iblk4 V c 9 t) (iblk4 V c 10 t) (iblk4 V c 11 t) (iblk4 V c 12 t) (iblk4 V c 13 t) (iblk4 V c 14 t) _)
  iframe H0 H1 H2 H3 H4 H5 H6 H7 H8 H9 H10 H11 H12 H13 H14
  isplitl [H15]; · iexists _; iexact H15
  iintro ⟨H0, H1, H2, H3, H4, H5, H6, H7, H8, H9, H10, H11, H12, H13, H14, H15⟩
  iframe

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := BI.Entails.refl _
theorem hout4 (c : Dev nD) : (dat4 V c).Φ (Fin.last cfg4.N) ⊢ (Pipeline.ΦA spec4 c : sProp 𝕄) := BI.Entails.refl _

end Region4

end Cert.Kernel.Gen

end
-- ==== Proof.K.Run.lean ====
/- The launch of the kernel program: @main is five stretches of host operations alternating with five pipelined regions.
   The contents at every boundary are a fold from the launch memory; a buffer that no stretch writes and no region flushes
   into keeps its launch contents throughout, and the arguments are such buffers. -/
import proofs.«409739_j33028298506661_1_alg».proof.Proof.K.Sage0
import proofs.«409739_j33028298506661_1_alg».proof.Proof.K.Sage1
import proofs.«409739_j33028298506661_1_alg».proof.Proof.K.Sage2
import proofs.«409739_j33028298506661_1_alg».proof.Proof.K.Pool
import proofs.«409739_j33028298506661_1_alg».proof.Proof.K.Mlp
import proofs.«409739_j33028298506661_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Exit

variable {cfg : Pipeline.Cfg sig Λ₀} (W : Dev nD → Valuation τ sig (Elt F))
  (dat : (c : Dev nD) → Dat τ (Elt F) Unit ℕ (UR sig nD τ) ℕ cfg c) (c : Dev nD)

/-- What a region leaves: its arrays at what the write-backs leave, every other buffer as entered. -/
def exitW : Valuation τ sig (Elt F) := Pipeline.withArrays cfg.spec c (W c) fun w => (dat c).arrAt w cfg.N

theorem exitW_arr (hinj : Function.Injective (Pipeline.arrRef cfg.spec)) (w : Fin cfg.W) :
    exitW W dat c (Proc.devRef .tc (Pipeline.arrRef cfg.spec w)) = (dat c).arrAt w cfg.N :=
  Pipeline.withArrays_arr cfg.spec hinj c _ _ w

theorem exitW_rest (b : Ref sig .tc) (hb : b ∉ Finset.univ.image (Pipeline.arrRef cfg.spec)) :
    exitW W dat c (Proc.devRef .tc b) = W c (Proc.devRef .tc b) :=
  Pipeline.withArrays_of_ne cfg.spec c _ _ b fun w e => hb (Finset.mem_image.mpr ⟨w, Finset.mem_univ _, e⟩)

/-- A region changes only the arrays its output windows flush into: an input window's array is read back as entered. -/
theorem exitW_keep (hinj : Function.Injective (Pipeline.arrRef cfg.spec))
    (hA : ∀ w, (dat c).A w = W c (Proc.devRef .tc (Pipeline.arrRef cfg.spec w))) (r : Ref sig .tc)
    (h : ∀ w, (cfg.win w).isOut = true → Pipeline.arrRef cfg.spec w ≠ r) :
    exitW W dat c (Proc.devRef .tc r) = W c (Proc.devRef .tc r) := by
  by_cases hr : ∃ w, Pipeline.arrRef cfg.spec w = r
  · obtain ⟨w, rfl⟩ := hr
    exact (exitW_arr W dat c hinj w).trans (((dat c).arrAt_in w (Bool.eq_false_iff.2 fun ho => h w ho rfl) _).trans (hA w))
  · exact exitW_rest W dat c r fun hb => hr (by simpa using hb)

end Exit

variable (m : (ℓ : Loc nD τ sig) → Buf (Elt F) ℓ) (ρ : Dev nD → PrngReg)

/-- A boundary's contents read at the core's own references. -/
abbrev rd (W : Dev nD → Valuation τ sig (Elt F)) (c : Dev nD) (b : Ref sig .tc) : Buf (Elt F) ((c : Thread nD τ).loc b) := W c b

/-! The contents at each boundary of @main: the launch memory, then alternately a stretch's results and a region's exit. -/

abbrev W0 : Dev nD → Valuation τ sig (Elt F) := fun c b => (s₀ m ρ).mem ((c : Dev nD), b)
abbrev W1 : Dev nD → Valuation τ sig (Elt F) := fun c => StableHlo.after hostOps0 (W0 m ρ c)
abbrev E1 := rd (W1 m ρ)
def W2 : Dev nD → Valuation τ sig (Elt F) := exitW (W1 m ρ) (dat0 (E1 m ρ))
abbrev W3 : Dev nD → Valuation τ sig (Elt F) := fun c => StableHlo.after hostOps1 (W2 m ρ c)
abbrev E3 := rd (W3 m ρ)
def W4 : Dev nD → Valuation τ sig (Elt F) := exitW (W3 m ρ) (dat1 (E3 m ρ))
abbrev W5 : Dev nD → Valuation τ sig (Elt F) := fun c => StableHlo.after hostOps2 (W4 m ρ c)
abbrev E5 := rd (W5 m ρ)
def W6 : Dev nD → Valuation τ sig (Elt F) := exitW (W5 m ρ) (dat2 (E5 m ρ))
abbrev W7 : Dev nD → Valuation τ sig (Elt F) := fun c => StableHlo.after hostOps3 (W6 m ρ c)
abbrev E7 := rd (W7 m ρ)
def W8 : Dev nD → Valuation τ sig (Elt F) := exitW (W7 m ρ) (dat3 (E7 m ρ))
abbrev W9 : Dev nD → Valuation τ sig (Elt F) := fun c => StableHlo.after hostOps4 (W8 m ρ c)
abbrev E9 := rd (W9 m ρ)
def W10 : Dev nD → Valuation τ sig (Elt F) := exitW (W9 m ρ) (dat4 (E9 m ρ))

/-- No stretch writes `r` and it is no region's output array. -/
abbrev Quiet (r : Ref sig .tc) : Prop :=
  r ∉ hostOps0_W ∧ r ≠ main_v24 ∧ r ∉ hostOps1_W ∧ r ≠ main_v38 ∧ r ∉ hostOps2_W ∧ r ≠ main_v52 ∧ r ∉ hostOps3_W ∧ r ≠ main_v54 ∧ r ∉ hostOps4_W ∧ r ≠ main_v74

section Keep
variable (c : Dev nD) (r : Ref sig .tc)
theorem keep1 (h : r ∉ hostOps0_W) : W1 m ρ c (Proc.devRef .tc r) = W0 m ρ c (Proc.devRef .tc r) :=
  StableHlo.after_of_writes_sub hostOps0 _ hostOps0_writes h
theorem keep2 (h : r ≠ main_v24) : W2 m ρ c (Proc.devRef .tc r) = W1 m ρ c (Proc.devRef .tc r) :=
  exitW_keep _ _ c launch0.win.arr_inj (A_eq0 (E1 m ρ) c) r fun w ho e =>
    h (e.symm.trans ((by decide : ∀ w, (cfg0.win w).isOut = true → Pipeline.arrRef spec0 w = main_v24) w ho))
theorem keep3 (h : r ∉ hostOps1_W) : W3 m ρ c (Proc.devRef .tc r) = W2 m ρ c (Proc.devRef .tc r) :=
  StableHlo.after_of_writes_sub hostOps1 _ hostOps1_writes h
theorem keep4 (h : r ≠ main_v38) : W4 m ρ c (Proc.devRef .tc r) = W3 m ρ c (Proc.devRef .tc r) :=
  exitW_keep _ _ c launch1.win.arr_inj (A_eq1 (E3 m ρ) c) r fun w ho e =>
    h (e.symm.trans ((by decide : ∀ w, (cfg1.win w).isOut = true → Pipeline.arrRef spec1 w = main_v38) w ho))
theorem keep5 (h : r ∉ hostOps2_W) : W5 m ρ c (Proc.devRef .tc r) = W4 m ρ c (Proc.devRef .tc r) :=
  StableHlo.after_of_writes_sub hostOps2 _ hostOps2_writes h
theorem keep6 (h : r ≠ main_v52) : W6 m ρ c (Proc.devRef .tc r) = W5 m ρ c (Proc.devRef .tc r) :=
  exitW_keep _ _ c launch2.win.arr_inj (A_eq2 (E5 m ρ) c) r fun w ho e =>
    h (e.symm.trans ((by decide : ∀ w, (cfg2.win w).isOut = true → Pipeline.arrRef spec2 w = main_v52) w ho))
theorem keep7 (h : r ∉ hostOps3_W) : W7 m ρ c (Proc.devRef .tc r) = W6 m ρ c (Proc.devRef .tc r) :=
  StableHlo.after_of_writes_sub hostOps3 _ hostOps3_writes h
theorem keep8 (h : r ≠ main_v54) : W8 m ρ c (Proc.devRef .tc r) = W7 m ρ c (Proc.devRef .tc r) :=
  exitW_keep _ _ c launch3.win.arr_inj (A_eq3 (E7 m ρ) c) r fun w ho e =>
    h (e.symm.trans ((by decide : ∀ w, (cfg3.win w).isOut = true → Pipeline.arrRef spec3 w = main_v54) w ho))
theorem keep9 (h : r ∉ hostOps4_W) : W9 m ρ c (Proc.devRef .tc r) = W8 m ρ c (Proc.devRef .tc r) :=
  StableHlo.after_of_writes_sub hostOps4 _ hostOps4_writes h
theorem keep10 (h : r ≠ main_v74) : W10 m ρ c (Proc.devRef .tc r) = W9 m ρ c (Proc.devRef .tc r) :=
  exitW_keep _ _ c launch4.win.arr_inj (A_eq4 (E9 m ρ) c) r fun w ho e =>
    h (e.symm.trans ((by decide : ∀ w, (cfg4.win w).isOut = true → Pipeline.arrRef spec4 w = main_v74) w ho))

/-- A quiet buffer holds its launch contents at every boundary. -/
theorem q1 (h : Quiet r) : W1 m ρ c (Proc.devRef .tc r) = W0 m ρ c (Proc.devRef .tc r) := keep1 m ρ c r h.1
theorem q2 (h : Quiet r) : W2 m ρ c (Proc.devRef .tc r) = W0 m ρ c (Proc.devRef .tc r) := (keep2 m ρ c r h.2.1).trans (q1 m ρ c r h)
theorem q3 (h : Quiet r) : W3 m ρ c (Proc.devRef .tc r) = W0 m ρ c (Proc.devRef .tc r) := (keep3 m ρ c r h.2.2.1).trans (q2 m ρ c r h)
theorem q4 (h : Quiet r) : W4 m ρ c (Proc.devRef .tc r) = W0 m ρ c (Proc.devRef .tc r) := (keep4 m ρ c r h.2.2.2.1).trans (q3 m ρ c r h)
theorem q5 (h : Quiet r) : W5 m ρ c (Proc.devRef .tc r) = W0 m ρ c (Proc.devRef .tc r) := (keep5 m ρ c r h.2.2.2.2.1).trans (q4 m ρ c r h)
theorem q6 (h : Quiet r) : W6 m ρ c (Proc.devRef .tc r) = W0 m ρ c (Proc.devRef .tc r) := (keep6 m ρ c r h.2.2.2.2.2.1).trans (q5 m ρ c r h)
theorem q7 (h : Quiet r) : W7 m ρ c (Proc.devRef .tc r) = W0 m ρ c (Proc.devRef .tc r) := (keep7 m ρ c r h.2.2.2.2.2.2.1).trans (q6 m ρ c r h)
theorem q8 (h : Quiet r) : W8 m ρ c (Proc.devRef .tc r) = W0 m ρ c (Proc.devRef .tc r) := (keep8 m ρ c r h.2.2.2.2.2.2.2.1).trans (q7 m ρ c r h)
theorem q9 (h : Quiet r) : W9 m ρ c (Proc.devRef .tc r) = W0 m ρ c (Proc.devRef .tc r) := (keep9 m ρ c r h.2.2.2.2.2.2.2.2.1).trans (q8 m ρ c r h)
theorem q10 (h : Quiet r) : W10 m ρ c (Proc.devRef .tc r) = W0 m ρ c (Proc.devRef .tc r) := (keep10 m ρ c r h.2.2.2.2.2.2.2.2.2).trans (q9 m ρ c r h)
end Keep

/-! The proof data family, the thread state, and the regions as segments. -/

abbrev padm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) padm p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c

abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W10 m ρ c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false

/-- A region with no semaphore of its own, no table and nothing owed, as a segment from the contents `WI` to `exitW WI`. -/
def mkReg (p : Fin 5) (lf : Pipeline.LaunchFacts (nD := nD) (τ := τ) cfgs p) (WI : Dev nD → Valuation τ sig (Elt F))
    (hbody : ∀ c, BodyObligation (pdats m ρ p c) (defs₀ (F := F)) Variants.none () Set.univ)
    (howed : ∀ c t, (pdats m ρ p c).owed t = 0) (hrec : ∀ c, (pdats m ρ p c).recorded 0 = Set.univ)
    (hq : ∀ c w, (pdats m ρ p c).q w = fullShare)
    (hA : ∀ c w, (pdats m ρ p c).A w = rd WI c (Pipeline.arrRef (Pipeline.pin (pcfgs (F := F)) padm p).spec w))
    (hΦ0 : ∀ c, (Pipeline.ΦA (Pipeline.pin (pcfgs (F := F)) padm p).spec c : sProp 𝕄) ⊢ (pdats m ρ p c).Φ 0)
    (hΦN : ∀ c, (pdats m ρ p c).Φ (Fin.last (Pipeline.pin (pcfgs (F := F)) padm p).N) ⊢ (Pipeline.ΦA (Pipeline.pin (pcfgs (F := F)) padm p).spec c : sProp 𝕄)) :
    Pipeline.RegionSeg (pcfgs (F := F)) padm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (WI c) ∗ R c)
  post c := iprop(StableHlo.held (c : Thread nD τ) (Pipeline.ucRefs τ sig) (exitW WI (pdats m ρ p) c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) padm p).spec c (rd WI c)
  hentry c := by
    rw [Pipeline.ownSems0_none]
    have hsplit := Pipeline.arrays_of_unscopedBufs (p := p) (pcfgs (F := F)) padm (pdats m ρ) lf.win lf.arr_whole c
      ((pdats m ρ p c).share_full (hq c)) (rd WI c) (hA c)
    rw [Pipeline.unscopedBufs_held] at hsplit
    unfold Pipeline.Dat.owesAt Pipeline.Dat.bound Pipeline.owesWithin
    rw [howed c 0, hrec c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    refine BI.Entails.trans ?_ (hΦ0 c)
    show iprop(_ ∗ _ ∗ _) ⊢ (Pipeline.ΦA _ c : sProp 𝕄)
    unfold Pipeline.ΦA
    iintro ⟨Hp, -, Hr⟩
    isplitl [Hr]; · iexact Hr
    iexact Hp
  hout c := by
    rw [Pipeline.ownSems0_none]
    refine BI.Entails.trans (hΦN c) ?_
    show (Pipeline.ΦA _ c : sProp 𝕄) ⊢ iprop(_ ∗ _ ∗ _)
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) padm (Ix := Unit) (Name := ℕ) (U := UR sig nD τ) (Lvl := ℕ)
      lf.win lf.arr_whole c (pdats m ρ) ((pdats m ρ p c).share_full (hq c))
      (rd WI c) (rd (exitW WI (pdats m ρ p)) c) ((pdats m ρ p c).arrAt · (Pipeline.pin (pcfgs (F := F)) padm p).N)
      (fun w => (exitW_arr WI (pdats m ρ p) c lf.win.arr_inj w).symm) (exitW_rest WI (pdats m ρ p) c)
    rw [Pipeline.unscopedBufs_held] at hjoin
    unfold Pipeline.Dat.owesAt Pipeline.owesWithin
    rw [howed c (Fin.last _)]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 := mkReg m ρ 0 launch0 (W1 m ρ) (body_obligation0 (E1 m ρ)) (fun _ _ => rfl) (fun _ => rfl) (fun _ _ => rfl)
  (A_eq0 (E1 m ρ)) (hin0 (E1 m ρ)) (hout0 (E1 m ρ))
def reg1 := mkReg m ρ 1 launch1 (W3 m ρ) (body_obligation1 (E3 m ρ)) (fun _ _ => rfl) (fun _ => rfl) (fun _ _ => rfl)
  (A_eq1 (E3 m ρ)) (hin1 (E3 m ρ)) (hout1 (E3 m ρ))
def reg2 := mkReg m ρ 2 launch2 (W5 m ρ) (body_obligation2 (E5 m ρ)) (fun _ _ => rfl) (fun _ => rfl) (fun _ _ => rfl)
  (A_eq2 (E5 m ρ)) (hin2 (E5 m ρ)) (hout2 (E5 m ρ))
def reg3 := mkReg m ρ 3 launch3 (W7 m ρ) (body_obligation3 (E7 m ρ)) (owed_eq3 (E7 m ρ)) (fun c => recorded_eq3 (E7 m ρ) c 0)
  (q_eq3 (E7 m ρ)) (A_eq3 (E7 m ρ)) (hin3 (E7 m ρ)) (hout3 (E7 m ρ))
def reg4 := mkReg m ρ 4 launch4 (W9 m ρ) (body_obligation4 (E9 m ρ)) (owed_eq4 (E9 m ρ)) (fun c => recorded_eq4 (E9 m ρ) c 0)
  (q_eq4 (E9 m ρ)) (A_eq4 (E9 m ρ)) (hin4 (E9 m ρ)) (hout4 (E9 m ρ))

/-- @main's segments in order: a host segment per stretch, a region per kernel call. -/
abbrev msegs : List (Pipeline.Seg (pcfgs (F := F)) padm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
theorem main_run (c : Dev nD) : main (F := F) c = Pipeline.Seg.run (msegs m ρ) := by
  rw [main_chain c, Pipeline.Seg.run_eq_chain]
  rfl

/-- Every weakly fair execution of @main terminates, nothing faulting, every unscoped buffer ending at the last boundary's contents. -/
theorem run_all : θ_run defs (onTc (τ := τ) (main (F := F))) ⟨m, fun _ => 0, ρ⟩ (fun r => ∀ c : Dev nD,
    ∀ b ∈ Pipeline.ucRefs τ sig, r.2.mem ((c : Thread nD τ).1, b) = W10 m ρ c b) :=
  Pipeline.θ_run_regions_kit (pcfgs (F := F)) padm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- Every argument of @main is quiet and unscoped. -/
theorem all_args {P : Ref sig .tc → Prop} (H : ∀ r, Quiet r ∧ ¬ (Proc.devRef .tc r : DevRef τ sig).isScoped → P r) :
    P main_arg0 ∧ P main_arg1 ∧ P main_arg2 ∧ P main_arg3 ∧ P main_arg4 ∧ P main_arg5 ∧ P main_arg6 ∧ P main_arg7 ∧ P main_arg8 ∧ P main_arg9 ∧ P main_arg10 ∧ P main_arg11 ∧ P main_arg12 ∧ P main_arg13 ∧ P main_arg14 ∧ P main_arg15 ∧ P main_arg16 ∧ P main_arg17 ∧ P main_arg18 ∧ P main_arg19 ∧ P main_arg20 ∧ P main_arg21 ∧ P main_arg22 ∧ P main_arg23 ∧ P main_arg24 ∧ P main_arg25 :=
  ⟨H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide)⟩

/-- A memory that holds the last boundary's contents holds a quiet unscoped buffer as launched. -/
theorem kept (c : Dev nD) (mem : (ℓ : Loc nD τ sig) → Buf (Elt F) ℓ)
    (h : ∀ b ∈ Pipeline.ucRefs τ sig, mem ((c : Thread nD τ).1, b) = W10 m ρ c b) (r : Ref sig .tc)
    (hr : Quiet r ∧ ¬ (Proc.devRef .tc r : DevRef τ sig).isScoped) :
    mem ((c : Thread nD τ).loc r) = m ((c : Thread nD τ).loc r) :=
  (h _ (mem_uc r hr.2)).trans (q10 m ρ c r hr.1)

end Cert.Kernel.Gen

end
-- ==== Proof.KI.Sage0.lean ====
/- Region 0, layer 1's linear transform, one row block of 5000 nodes per grid point: the output block at a point is
   `agg · Wl + bl + x · Wr` of the five input blocks at that point. -/
import proofs.«409739_j33028298506661_1_alg».proof.Proof.Gen.KernelIdeal.Launch
import proofs.«409739_j33028298506661_1_alg».proof.Proof.Gen.KernelIdeal.Skeleton
import proofs.«409739_j33028298506661_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S5000x128 := Rect.unit (s := S5000x128) ![0, 0] S5000x128.size inb_S5000x128_S5000x128_0_0
abbrev r0_w : Rect S128x64 := Rect.unit (s := S128x64) ![0, 0] S128x64.size inb_S128x64_S128x64_0_0
abbrev r0_b : Rect S1x64 := Rect.unit (s := S1x64) ![0, 0] S1x64.size inb_S1x64_S1x64_0_0
abbrev r0_o : Rect S5000x64 := Rect.unit (s := S5000x64) ![0, 0] S5000x64.size inb_S5000x64_S5000x64_0_0

def out0_5 (x0 : Vec F S5000x128 .f32) (x1 : Vec F S5000x128 .f32) (x2 : Vec F S128x64 .f32) (x3 : Vec F S1x64 .f32) (x4 : Vec F S128x64 .f32) : Vec F S5000x64 .f32 :=
  View.canon [⟨r0_o, k0_pay1 (View.ld x0 r0_a) (View.ld x1 r0_a) (View.ld x2 r0_w) (View.ld x4 r0_w) (View.ld x3 r0_b)⟩]

theorem cover0_5 (p0 : Vec F S5000x64 .f32) (y : S5000x64.Idx) :
    ∃ pc ∈ ([⟨r0_o, p0⟩] : List (View.Piece (Elt F) S5000x64 .f32)), y ∈ pc.1.set :=
  View.cover_of_tiled [⟨r0_o, p0⟩] S5000x64.size (by rfl) y

set_option maxHeartbeats 1000000 in
/-- The body's triple: it computes the payload of its inputs and changes nothing else. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (x0 : Vec F S5000x128 .f32) (x1 : Vec F S5000x128 .f32) (x2 : Vec F S128x64 .f32) (x3 : Vec F S1x64 .f32) (x4 : Vec F S128x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_transform_kernel i arg1 harg1 arg2 harg2 arg3 harg3 arg4 harg4 arg5 harg5 arg6 harg6) K := by
  simp only [cc0__sage_transform_kernel_eq_skeleton]; unfold cc0__sage_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- The body reads each input window at its block of the array. -/
theorem before0 (c : Dev nD) (t : Fin cfg0.N) :
    (∀ d, (dat0 V c).before 0 t d = iblk0 V c 0 t)
    ∧ (∀ d, (dat0 V c).before 1 t d = iblk0 V c 1 t)
    ∧ (∀ d, (dat0 V c).before 2 t d = iblk0 V c 2 t)
    ∧ (∀ d, (dat0 V c).before 3 t d = iblk0 V c 3 t)
    ∧ (∀ d, (dat0 V c).before 4 t d = iblk0 V c 4 t) := by
  refine ⟨?_, ?_, ?_, ?_, ?_⟩ <;> exact fun d =>
    ((dat0 V c).before_in_eq_fetched _ rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [(before0 V c t).1, (before0 V c t).2.1, (before0 V c t).2.2.1, (before0 V c t).2.2.2.1, (before0 V c t).2.2.2.2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  iframe H0 H1 H2 H3 H4
  isplitl [H5]; · iexists _; iexact H5
  iintro ⟨H0, H1, H2, H3, H4, H5⟩
  iframe

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := BI.Entails.refl _
theorem hout0 (c : Dev nD) : (dat0 V c).Φ (Fin.last cfg0.N) ⊢ (Pipeline.ΦA spec0 c : sProp 𝕄) := BI.Entails.refl _

end Region0

end Cert.KernelIdeal.Gen

end
-- ==== Proof.KI.Sage1.lean ====
/- Region 1, layer 2's linear transform, one row block of 5000 nodes per grid point: the output block at a point is
   `agg · Wl + bl + x · Wr` of the five input blocks at that point. -/
import proofs.«409739_j33028298506661_1_alg».proof.Proof.Gen.KernelIdeal.Launch
import proofs.«409739_j33028298506661_1_alg».proof.Proof.Gen.KernelIdeal.Skeleton
import proofs.«409739_j33028298506661_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x64 := Rect.unit (s := S5000x64) ![0, 0] S5000x64.size inb_S5000x64_S5000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0
abbrev r1_o : Rect S5000x64 := Rect.unit (s := S5000x64) ![0, 0] S5000x64.size inb_S5000x64_S5000x64_0_0

def out1_5 (x0 : Vec F S5000x64 .f32) (x1 : Vec F S5000x64 .f32) (x2 : Vec F S64x64 .f32) (x3 : Vec F S1x64 .f32) (x4 : Vec F S64x64 .f32) : Vec F S5000x64 .f32 :=
  View.canon [⟨r1_o, k1_pay1 (View.ld x0 r1_a) (View.ld x1 r1_a) (View.ld x2 r1_w) (View.ld x4 r1_w) (View.ld x3 r1_b)⟩]

theorem cover1_5 (p0 : Vec F S5000x64 .f32) (y : S5000x64.Idx) :
    ∃ pc ∈ ([⟨r1_o, p0⟩] : List (View.Piece (Elt F) S5000x64 .f32)), y ∈ pc.1.set :=
  View.cover_of_tiled [⟨r1_o, p0⟩] S5000x64.size (by rfl) y

set_option maxHeartbeats 1000000 in
/-- The body's triple: it computes the payload of its inputs and changes nothing else. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (x0 : Vec F S5000x64 .f32) (x1 : Vec F S5000x64 .f32) (x2 : Vec F S64x64 .f32) (x3 : Vec F S1x64 .f32) (x4 : Vec F S64x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_transform_kernel i arg1 harg1 arg2 harg2 arg3 harg3 arg4 harg4 arg5 harg5 arg6 harg6) K := by
  simp only [cc1__sage_transform_kernel_eq_skeleton]; unfold cc1__sage_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- The body reads each input window at its block of the array. -/
theorem before1 (c : Dev nD) (t : Fin cfg1.N) :
    (∀ d, (dat1 V c).before 0 t d = iblk1 V c 0 t)
    ∧ (∀ d, (dat1 V c).before 1 t d = iblk1 V c 1 t)
    ∧ (∀ d, (dat1 V c).before 2 t d = iblk1 V c 2 t)
    ∧ (∀ d, (dat1 V c).before 3 t d = iblk1 V c 3 t)
    ∧ (∀ d, (dat1 V c).before 4 t d = iblk1 V c 4 t) := by
  refine ⟨?_, ?_, ?_, ?_, ?_⟩ <;> exact fun d =>
    ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [(before1 V c t).1, (before1 V c t).2.1, (before1 V c t).2.2.1, (before1 V c t).2.2.2.1, (before1 V c t).2.2.2.2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := BI.Entails.refl _
theorem hout1 (c : Dev nD) : (dat1 V c).Φ (Fin.last cfg1.N) ⊢ (Pipeline.ΦA spec1 c : sProp 𝕄) := BI.Entails.refl _

end Region1

end Cert.KernelIdeal.Gen

end
-- ==== Proof.KI.Sage2.lean ====
/- Region 2, layer 3's linear transform, one row block of 5000 nodes per grid point: the output block at a point is
   `agg · Wl + bl + x · Wr` of the five input blocks at that point. -/
import proofs.«409739_j33028298506661_1_alg».proof.Proof.Gen.KernelIdeal.Launch
import proofs.«409739_j33028298506661_1_alg».proof.Proof.Gen.KernelIdeal.Skeleton
import proofs.«409739_j33028298506661_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S5000x64 := Rect.unit (s := S5000x64) ![0, 0] S5000x64.size inb_S5000x64_S5000x64_0_0
abbrev r2_w : Rect S64x64 := Rect.unit (s := S64x64) ![0, 0] S64x64.size inb_S64x64_S64x64_0_0
abbrev r2_b : Rect S1x64 := Rect.unit (s := S1x64) ![0, 0] S1x64.size inb_S1x64_S1x64_0_0
abbrev r2_o : Rect S5000x64 := Rect.unit (s := S5000x64) ![0, 0] S5000x64.size inb_S5000x64_S5000x64_0_0

def out2_5 (x0 : Vec F S5000x64 .f32) (x1 : Vec F S5000x64 .f32) (x2 : Vec F S64x64 .f32) (x3 : Vec F S1x64 .f32) (x4 : Vec F S64x64 .f32) : Vec F S5000x64 .f32 :=
  View.canon [⟨r2_o, k2_pay1 (View.ld x0 r2_a) (View.ld x1 r2_a) (View.ld x2 r2_w) (View.ld x4 r2_w) (View.ld x3 r2_b)⟩]

theorem cover2_5 (p0 : Vec F S5000x64 .f32) (y : S5000x64.Idx) :
    ∃ pc ∈ ([⟨r2_o, p0⟩] : List (View.Piece (Elt F) S5000x64 .f32)), y ∈ pc.1.set :=
  View.cover_of_tiled [⟨r2_o, p0⟩] S5000x64.size (by rfl) y

set_option maxHeartbeats 1000000 in
/-- The body's triple: it computes the payload of its inputs and changes nothing else. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (x0 : Vec F S5000x64 .f32) (x1 : Vec F S5000x64 .f32) (x2 : Vec F S64x64 .f32) (x3 : Vec F S1x64 .f32) (x4 : Vec F S64x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__sage_transform_kernel i arg1 harg1 arg2 harg2 arg3 harg3 arg4 harg4 arg5 harg5 arg6 harg6) K := by
  simp only [cc2__sage_transform_kernel_eq_skeleton]; unfold cc2__sage_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- The body reads each input window at its block of the array. -/
theorem before2 (c : Dev nD) (t : Fin cfg2.N) :
    (∀ d, (dat2 V c).before 0 t d = iblk2 V c 0 t)
    ∧ (∀ d, (dat2 V c).before 1 t d = iblk2 V c 1 t)
    ∧ (∀ d, (dat2 V c).before 2 t d = iblk2 V c 2 t)
    ∧ (∀ d, (dat2 V c).before 3 t d = iblk2 V c 3 t)
    ∧ (∀ d, (dat2 V c).before 4 t d = iblk2 V c 4 t) := by
  refine ⟨?_, ?_, ?_, ?_, ?_⟩ <;> exact fun d =>
    ((dat2 V c).before_in_eq_fetched _ rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [(before2 V c t).1, (before2 V c t).2.1, (before2 V c t).2.2.1, (before2 V c t).2.2.2.1, (before2 V c t).2.2.2.2]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  iframe H0 H1 H2 H3 H4
  isplitl [H5]; · iexists _; iexact H5
  iintro ⟨H0, H1, H2, H3, H4, H5⟩
  iframe

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := BI.Entails.refl _
theorem hout2 (c : Dev nD) : (dat2 V c).Φ (Fin.last cfg2.N) ⊢ (Pipeline.ΦA spec2 c : sProp 𝕄) := BI.Entails.refl _

end Region2

end Cert.KernelIdeal.Gen

end
-- ==== Proof.KI.Pool.lean ====
/- Region 3, the pooled sums: a scratch accumulator carried over ten row blocks of 5000 nodes; zeroed at the first point, each
   point adds its block's one-hot product, and the last point copies the sum out. -/
import proofs.«409739_j33028298506661_1_alg».proof.Proof.Gen.KernelIdeal.Launch
import proofs.«409739_j33028298506661_1_alg».proof.Proof.Gen.KernelIdeal.Skeleton
import proofs.«409739_j33028298506661_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The running pooled sum: what the accumulator holds after the body at point `n`. -/
def acc3 (c : Dev nD) : (n : ℕ) → n < cfg3.N → Vec F S256x64 .f32
  | 0, hn => k3_pay2 (iblk3 V c 1 ⟨0, hn⟩) (iblk3 V c 0 ⟨0, hn⟩) (k3_pay1 (F := F))
  | n + 1, hn => k3_pay2 (iblk3 V c 1 ⟨n + 1, hn⟩) (iblk3 V c 0 ⟨n + 1, hn⟩) (acc3 c n (Nat.lt_of_succ_lt hn))

theorem acc3_zero (c : Dev nD) (h : 0 < cfg3.N) :
    acc3 V c 0 h = k3_pay2 (iblk3 V c 1 ⟨0, h⟩) (iblk3 V c 0 ⟨0, h⟩) (k3_pay1 (F := F)) := rfl

theorem acc3_succ (c : Dev nD) (n : ℕ) (h : n + 1 < cfg3.N) :
    acc3 V c (n + 1) h = k3_pay2 (iblk3 V c 1 ⟨n + 1, h⟩) (iblk3 V c 0 ⟨n + 1, h⟩) (acc3 V c n (Nat.lt_of_succ_lt h)) := rfl

abbrev scM3 : Memref sig .tc .vmem S256x64 .f32 := Memref.whole cc3_scratch0

/-- The region invariant before position `n`: after the first point it holds the accumulator at the running sum. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0])
      ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem q_eq3 (c : Dev nD) (w : Fin cfg3.W) : (dat3 V c).q w = fullShare := by dsimp only [dat3]
theorem owed_eq3 (c : Dev nD) (t : Fin (cfg3.N + 1)) : (dat3 V c).owed t = 0 := by dsimp only [dat3]
theorem recorded_eq3 (c : Dev nD) (t : Fin (cfg3.N + 1)) : (dat3 V c).recorded t = Set.univ := rfl

abbrev first3 (i : grid3.Coords) : Prop := (Scalar.cmpi .ne (Scalar.extui (Scalar.cmpi .eq (BitVec.ofNat 32 (i 0).val) 0#32)) 0#32) = 1#1

theorem first3_iff : ∀ t : Fin cfg3.N, first3 (grid3.coords t) ↔ t.val % 10 = 0 :=
  (by decide +kernel : ∀ t : Fin grid3.N, first3 (grid3.coords t) ↔ t.val % 10 = 0)

abbrev last3 (i : grid3.Coords) : Prop := k3_cond2 i = 1#1

theorem last3_iff : ∀ t : Fin cfg3.N, last3 (grid3.coords t) ↔ t.val % 10 = 9 :=
  (by decide +kernel : ∀ t : Fin grid3.N, last3 (grid3.coords t) ↔ t.val % 10 = 9)

theorem live3_0 : ∀ t : Fin cfg3.N, cfg3.idle 0 (grid3.coords t) = false := by decide +kernel
theorem live3_1 : ∀ t : Fin cfg3.N, cfg3.idle 1 (grid3.coords t) = false := by decide +kernel

theorem idle3_2 : ∀ t : Fin cfg3.N, ¬last3 (grid3.coords t) → cfg3.idle 2 (grid3.coords t) = true := by decide +kernel

theorem noFlush3_2 : ∀ t : Fin cfg3.N, ¬last3 (grid3.coords t) → (cfg3.win 2).flush t = false := by decide +kernel

theorem live3_2 : ∀ t : Fin cfg3.N, last3 (grid3.coords t) → cfg3.idle 2 (grid3.coords t) = false := by decide +kernel

abbrev r3_h : Rect S5000x64 := Rect.unit (s := S5000x64) ![0, 0] S5000x64.size inb_S5000x64_S5000x64_0_0
abbrev r3_b : Rect S5000x1 := Rect.unit (s := S5000x1) ![0, 0] S5000x1.size inb_S5000x1_S5000x1_0_0
abbrev r3_a : Rect S256x64 := Rect.unit (s := S256x64) ![0, 0] S256x64.size inb_S256x64_S256x64_0_0

theorem zero_off3 : (![0, 0] : Fin 2 → Nat) = fun _ => 0 := funext fun a => by fin_cases a <;> rfl

theorem cover3 (p : Vec F S256x64 .f32) (L : List (View.Piece (Elt F) S256x64 .f32)) (y : S256x64.Idx) :
    ∃ pc ∈ ((⟨r3_a, p⟩ : View.Piece (Elt F) S256x64 .f32) :: L), y ∈ pc.1.set :=
  ⟨_, List.mem_cons_self, View.mem_set_unit_zero zero_off3 inb_S256x64_S256x64_0_0 y⟩

set_option maxHeartbeats 1000000 in

theorem sound_kernel3_first (c : Dev nD) (E : Set ℕ) (i : grid3.Coords)
    (arg1 : Memref sig .tc .vmem S5000x64 .f32) (harg1 : arg1.IsWhole) (arg2 : Memref sig .tc .vmem S5000x1 .i32) (harg2 : arg2.IsWhole)
    (arg3 : Memref sig .tc .vmem S256x64 .f32) (harg3 : arg3.IsWhole) (arg4 : Memref sig .tc .vmem S256x64 .f32) (harg4 : arg4.IsWhole)
    (hc0 : first3 i) (hc1 : ¬last3 i)
    (xh : Vec F S5000x64 .f32) (xb : Vec F S5000x1 .i32) (xo : Vec F S256x64 .f32)
    (K : PUnit → sProp 𝕄) :
    iprop(owns (c : Thread nD τ) arg1 fullShare xh ∗ owns (c : Thread nD τ) arg2 fullShare xb
        ∗ owns (c : Thread nD τ) arg3 fullShare xo ∗ (∃ d, owns (c : Thread nD τ) arg4 fullShare d)
        ∗ (iprop(owns (c : Thread nD τ) arg1 fullShare xh ∗ owns (c : Thread nD τ) arg2 fullShare xb
            ∗ owns (c : Thread nD τ) arg3 fullShare xo ∗ owns (c : Thread nD τ) arg4 fullShare (k3_pay2 xb xh (k3_pay1 (F := F)))) -∗ K ⟨⟩))
      ⊢ wp frame (wpE (defs₀ (F := F)) Variants.none c none) E (cc3__pool_sum_kernel i arg1 harg1 arg2 harg2 arg3 harg3 arg4 harg4) K := by
  simp only [cc3__pool_sum_kernel_eq_skeleton]; unfold cc3__pool_sum_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover3 _ _), View.canon_cons_unit_zero zero_off3, View.readCov_unit_zero _ zero_off3]
  simp only [View.readAt_eq_ld, View.ld_unit_zero (S := S5000x1) zero_off3, View.ld_unit_zero (S := S5000x64) zero_off3, View.ld_unit_zero (S := S256x64) zero_off3]

set_option maxHeartbeats 1000000 in

theorem sound_kernel3_mid (c : Dev nD) (E : Set ℕ) (i : grid3.Coords)
    (arg1 : Memref sig .tc .vmem S5000x64 .f32) (harg1 : arg1.IsWhole) (arg2 : Memref sig .tc .vmem S5000x1 .i32) (harg2 : arg2.IsWhole)
    (arg3 : Memref sig .tc .vmem S256x64 .f32) (harg3 : arg3.IsWhole) (arg4 : Memref sig .tc .vmem S256x64 .f32) (harg4 : arg4.IsWhole)
    (hc0 : ¬first3 i) (hc1 : ¬last3 i)
    (xh : Vec F S5000x64 .f32) (xb : Vec F S5000x1 .i32) (xo : Vec F S256x64 .f32) (xs : Vec F S256x64 .f32)
    (K : PUnit → sProp 𝕄) :
    iprop(owns (c : Thread nD τ) arg1 fullShare xh ∗ owns (c : Thread nD τ) arg2 fullShare xb
        ∗ owns (c : Thread nD τ) arg3 fullShare xo ∗ owns (c : Thread nD τ) arg4 fullShare xs
        ∗ (iprop(owns (c : Thread nD τ) arg1 fullShare xh ∗ owns (c : Thread nD τ) arg2 fullShare xb
            ∗ owns (c : Thread nD τ) arg3 fullShare xo ∗ owns (c : Thread nD τ) arg4 fullShare (k3_pay2 xb xh xs)) -∗ K ⟨⟩))
      ⊢ wp frame (wpE (defs₀ (F := F)) Variants.none c none) E (cc3__pool_sum_kernel i arg1 harg1 arg2 harg2 arg3 harg3 arg4 harg4) K := by
  simp only [cc3__pool_sum_kernel_eq_skeleton]; unfold cc3__pool_sum_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover3 _ _), View.canon_unit_zero zero_off3]
  simp only [View.readAt_eq_ld, View.ld_unit_zero (S := S5000x1) zero_off3, View.ld_unit_zero (S := S5000x64) zero_off3, View.ld_unit_zero (S := S256x64) zero_off3]

set_option maxHeartbeats 1000000 in

theorem sound_kernel3_last (c : Dev nD) (E : Set ℕ) (i : grid3.Coords)
    (arg1 : Memref sig .tc .vmem S5000x64 .f32) (harg1 : arg1.IsWhole) (arg2 : Memref sig .tc .vmem S5000x1 .i32) (harg2 : arg2.IsWhole)
    (arg3 : Memref sig .tc .vmem S256x64 .f32) (harg3 : arg3.IsWhole) (arg4 : Memref sig .tc .vmem S256x64 .f32) (harg4 : arg4.IsWhole)
    (hc0 : ¬first3 i) (hc1 : last3 i)
    (xh : Vec F S5000x64 .f32) (xb : Vec F S5000x1 .i32) (xs : Vec F S256x64 .f32)
    (K : PUnit → sProp 𝕄) :
    iprop(owns (c : Thread nD τ) arg1 fullShare xh ∗ owns (c : Thread nD τ) arg2 fullShare xb
        ∗ (∃ d, owns (c : Thread nD τ) arg3 fullShare d) ∗ owns (c : Thread nD τ) arg4 fullShare xs
        ∗ (iprop(owns (c : Thread nD τ) arg1 fullShare xh ∗ owns (c : Thread nD τ) arg2 fullShare xb
            ∗ owns (c : Thread nD τ) arg3 fullShare (k3_pay2 xb xh xs) ∗ owns (c : Thread nD τ) arg4 fullShare (k3_pay2 xb xh xs)) -∗ K ⟨⟩))
      ⊢ wp frame (wpE (defs₀ (F := F)) Variants.none c none) E (cc3__pool_sum_kernel i arg1 harg1 arg2 harg2 arg3 harg3 arg4 harg4) K := by
  simp only [cc3__pool_sum_kernel_eq_skeleton]; unfold cc3__pool_sum_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover3 _ _), View.canon_unit_zero zero_off3, View.readCov_unit_zero _ zero_off3]
    simp only [View.readAt_eq_ld, View.ld_unit_zero (S := S5000x1) zero_off3, View.ld_unit_zero (S := S5000x64) zero_off3, View.ld_unit_zero (S := S256x64) zero_off3]
  iexists _; isplitr
  swap; · iexact H3
  ipureintro
  sl_unfold_words
  rw [View.read_writes_eq_canon _ _ _ (cover3 _ _), View.canon_unit_zero zero_off3]
  simp only [View.readAt_eq_ld, View.ld_unit_zero (S := S5000x1) zero_off3, View.ld_unit_zero (S := S5000x64) zero_off3, View.ld_unit_zero (S := S256x64) zero_off3]

/-- The body reads each input window at its block of the array. -/
theorem before3 (c : Dev nD) (t : Fin cfg3.N) :
    (∀ d, (dat3 V c).before 0 t d = iblk3 V c 0 t)
    ∧ (∀ d, (dat3 V c).before 1 t d = iblk3 V c 1 t) := by
  refine ⟨?_, ?_⟩ <;> exact fun d =>
    ((dat3 V c).before_in_eq_fetched _ rfl (fun _ => rfl) (fun _ _ _ => rfl) (fun _ => rfl) t d).trans rfl

theorem acc3_first (c : Dev nD) (t : Fin cfg3.N) (hz : t.val = 0) :
    acc3 V c t.val t.isLt = k3_pay2 (iblk3 V c 1 t) (iblk3 V c 0 t) (k3_pay1 (F := F)) := by
  obtain ⟨n, hn⟩ := t
  cases n with
  | zero => rfl
  | succ n => exact absurd hz (Nat.succ_ne_zero n)

theorem acc3_later (c : Dev nD) (t : Fin cfg3.N) (hz : t.val ≠ 0) :
    acc3 V c t.val t.isLt = k3_pay2 (iblk3 V c 1 t) (iblk3 V c 0 t) (acc3 V c (t.val - 1) (Nat.lt_of_le_of_lt (Nat.sub_le _ _) t.isLt)) := by
  obtain ⟨n, hn⟩ := t
  cases n with
  | zero => exact absurd rfl hz
  | succ n => rfl

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0])
      ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0])
      ∗ (∃ r, prngReg c r)) := by
  cases n with
  | zero => exact absurd rfl hz
  | succ n => rfl

theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3, owns_whole]; try rfl

theorem PhiS3_castSucc (c : Dev nD) (t : Fin cfg3.N) :
    (dat3 V c).Φ t.castSucc = PhiS3 V c t.val (Nat.le_of_lt t.isLt) := by
  dsimp only [dat3]; simp only [Fin.coe_castSucc]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point, by the point's case: first, last, or in between. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [(before3 V c t).1, (before3 V c t).2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [live3_0 t], after3_0]
  rw [show (dat3 V c).leavesExact 1 t = owns (c : Thread nD τ) (st3_1 t) fullShare ((dat3 V c).after 1 t) from by
    unfold Dat.leavesExact; rw [live3_1 t], after3_1]
  have hN : t.val < 10 := lt_of_lt_of_eq t.isLt (show cfg3.N = 10 from N_3)
  by_cases h0 : t.val % 10 = 0
  · have hz : t.val = 0 := by omega
    have h1 : ¬t.val % 10 = 9 := by omega
    have hc0 : first3 (grid3.coords t) := (first3_iff t).mpr h0
    have hc1 : ¬last3 (grid3.coords t) := fun h => h1 ((last3_iff t).mp h)
    rw [Dat.leavesExact_idle (dat3 V c) 2 t (idle3_2 t hc1) (noFlush3_2 t hc1)]
    rw [PhiS3_castSucc V c t, PhiS3_zero V c _ _ hz, PhiA3_eq, acc3_first V c t hz]
    iintro ⟨⟨⟨HS, HR⟩, Hg⟩, Ho, ⟨%d0, H0⟩, ⟨%d1, H1⟩, ⟨%d2, H2⟩⟩
    iapply (sound_kernel3_first c Set.univ (grid3.coords t) _ _ _ _ _ _ _ _ hc0 hc1 (iblk3 V c 0 t) (iblk3 V c 1 t) ((dat3 V c).before 2 t d2) _)
    iframe H0 H1 H2 HS
    iintro ⟨H0, H1, H2, HS⟩
    iframe HS HR Hg Ho H0 H1
    iexists _; iexact H2
  · have hz : t.val ≠ 0 := fun h => h0 (by rw [h])
    have hc0 : ¬first3 (grid3.coords t) := fun h => h0 ((first3_iff t).mp h)
    by_cases h1 : t.val % 10 = 9
    · have hc1 : last3 (grid3.coords t) := (last3_iff t).mpr h1
      rw [show (dat3 V c).leavesExact 2 t = owns (c : Thread nD τ) (st3_2 t) fullShare ((dat3 V c).after 2 t) from by
        unfold Dat.leavesExact; rw [live3_2 t hc1], after3_2]
      rw [PhiS3_castSucc V c t, PhiS3_pos V c _ _ hz, acc3_later V c t hz]
      iintro ⟨⟨⟨HS, HR⟩, Hg⟩, Ho, ⟨%d0, H0⟩, ⟨%d1, H1⟩, ⟨%d2, H2⟩⟩
      iapply (sound_kernel3_last c Set.univ (grid3.coords t) _ _ _ _ _ _ _ _ hc0 hc1 (iblk3 V c 0 t) (iblk3 V c 1 t) (acc3 V c (t.val - 1) (Nat.lt_of_le_of_lt (Nat.sub_le _ _) t.isLt)) _)
      iframe H0 H1
      isplitl [H2]; · iexists _; iexact H2
      iframe HS
      iintro ⟨H0, H1, H2, HS⟩
      iframe
    · have hc1 : ¬last3 (grid3.coords t) := fun h => h1 ((last3_iff t).mp h)
      rw [Dat.leavesExact_idle (dat3 V c) 2 t (idle3_2 t hc1) (noFlush3_2 t hc1)]
      rw [PhiS3_castSucc V c t, PhiS3_pos V c _ _ hz, acc3_later V c t hz]
      iintro ⟨⟨⟨HS, HR⟩, Hg⟩, Ho, ⟨%d0, H0⟩, ⟨%d1, H1⟩, ⟨%d2, H2⟩⟩
      iapply (sound_kernel3_mid c Set.univ (grid3.coords t) _ _ _ _ _ _ _ _ hc0 hc1 (iblk3 V c 0 t) (iblk3 V c 1 t) ((dat3 V c).before 2 t d2) (acc3 V c (t.val - 1) (Nat.lt_of_le_of_lt (Nat.sub_le _ _) t.isLt)) _)
      iframe H0 H1 H2 HS
      iintro ⟨H0, H1, H2, HS⟩
      iframe HS HR Hg Ho H0 H1
      iexists _; iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

theorem hout3 (c : Dev nD) : (dat3 V c).Φ (Fin.last cfg3.N) ⊢ (Pipeline.ΦA spec3 c : sProp 𝕄) :=
  Phi_out3 V c _ (by rw [Fin.val_last]; have : cfg3.N = 10 := N_3; omega)

end Region3

end Cert.KernelIdeal.Gen

end
-- ==== Proof.KI.Mlp.lean ====
/- Region 4, the perceptron: one grid point; the output block is the four-layer perceptron, with batch normalisation, of the
   pooled means and the fourteen weight, bias and scale blocks. -/
import proofs.«409739_j33028298506661_1_alg».proof.Proof.Gen.KernelIdeal.Launch
import proofs.«409739_j33028298506661_1_alg».proof.Proof.Gen.KernelIdeal.Skeleton
import proofs.«409739_j33028298506661_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_x : Rect S256x64 := Rect.unit (s := S256x64) ![0, 0] S256x64.size inb_S256x64_S256x64_0_0
abbrev r4_w1 : Rect S64x256 := Rect.unit (s := S64x256) ![0, 0] S64x256.size inb_S64x256_S64x256_0_0
abbrev r4_b1 : Rect S1x256 := Rect.unit (s := S1x256) ![0, 0] S1x256.size inb_S1x256_S1x256_0_0
abbrev r4_p : Rect S256x128 := Rect.unit (s := S256x128) ![0, 0] S256x128.size inb_S256x128_S256x128_0_0
abbrev r4_b2 : Rect S1x128 := Rect.unit (s := S1x128) ![0, 0] S1x128.size inb_S1x128_S1x128_0_0
abbrev r4_w3 : Rect S128x64 := Rect.unit (s := S128x64) ![0, 0] S128x64.size inb_S128x64_S128x64_0_0
abbrev r4_b3 : Rect S1x64 := Rect.unit (s := S1x64) ![0, 0] S1x64.size inb_S1x64_S1x64_0_0
abbrev r4_w4 : Rect S64x10 := Rect.unit (s := S64x10) ![0, 0] S64x10.size inb_S64x10_S64x10_0_0
abbrev r4_b4 : Rect S1x10 := Rect.unit (s := S1x10) ![0, 0] S1x10.size inb_S1x10_S1x10_0_0
abbrev r4_o : Rect S256x10 := Rect.unit (s := S256x10) ![0, 0] S256x10.size inb_S256x10_S256x10_0_0

def out4_15 (x0 : Vec F S256x64 .f32) (x1 : Vec F S64x256 .f32) (x2 x3 x4 : Vec F S1x256 .f32) (x5 : Vec F S256x128 .f32)
    (x6 x7 x8 : Vec F S1x128 .f32) (x9 : Vec F S128x64 .f32) (x10 x11 x12 : Vec F S1x64 .f32) (x13 : Vec F S64x10 .f32)
    (x14 : Vec F S1x10 .f32) : Vec F S256x10 .f32 :=
  View.canon [⟨r4_o, k4_pay1
    (k4_pay4 (k4_pay2 (View.ld x0 r4_x) (View.ld x1 r4_w1) (View.ld x2 r4_b1) (View.ld x3 r4_b1) (View.ld x4 r4_b1))
      (k4_pay3 (View.ld x5 r4_p)) (constant S256x128 .f32 0x00000000#32)
      (View.ld x6 r4_b2) (View.ld x7 r4_b2) (View.ld x8 r4_b2) (View.ld x9 r4_w3) (View.ld x10 r4_b3))
    (k4_pay5 (View.ld x11 r4_b3)) (View.ld x12 r4_b3) (View.ld x13 r4_w4) (View.ld x14 r4_b4)⟩]

theorem cover4_15 (p0 : Vec F S256x10 .f32) (y : S256x10.Idx) :
    ∃ pc ∈ ([⟨r4_o, p0⟩] : List (View.Piece (Elt F) S256x10 .f32)), y ∈ pc.1.set :=
  View.cover_of_tiled [⟨r4_o, p0⟩] S256x10.size (by rfl) y

set_option maxHeartbeats 4000000 in

theorem sound_kernel4 (c : Dev nD) (E : Set ℕ) (i : grid4.Coords)
    (arg1 : Memref sig .tc .vmem S256x64 .f32) (harg1 : arg1.IsWhole) (arg2 : Memref sig .tc .vmem S64x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S256x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S128x64 .f32) (harg10 : arg10.IsWhole)
    (arg11 : Memref sig .tc .vmem S1x64 .f32) (harg11 : arg11.IsWhole) (arg12 : Memref sig .tc .vmem S1x64 .f32) (harg12 : arg12.IsWhole)
    (arg13 : Memref sig .tc .vmem S1x64 .f32) (harg13 : arg13.IsWhole) (arg14 : Memref sig .tc .vmem S64x10 .f32) (harg14 : arg14.IsWhole)
    (arg15 : Memref sig .tc .vmem S1x10 .f32) (harg15 : arg15.IsWhole) (arg16 : Memref sig .tc .vmem S256x10 .f32) (harg16 : arg16.IsWhole)
    (x0 : Vec F S256x64 .f32) (x1 : Vec F S64x256 .f32) (x2 x3 x4 : Vec F S1x256 .f32) (x5 : Vec F S256x128 .f32)
    (x6 x7 x8 : Vec F S1x128 .f32) (x9 : Vec F S128x64 .f32) (x10 x11 x12 : Vec F S1x64 .f32) (x13 : Vec F S64x10 .f32)
    (x14 : Vec F S1x10 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ (∃ d, owns (c : Thread nD τ) arg16 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare (out4_15 x0 x1 x2 x3 x4 x5 x6 x7 x8 x9 x10 x11 x12 x13 x14)) -∗ K ⟨⟩))
      ⊢ wp frame (wpE (defs₀ (F := F)) Variants.none c none) E (cc4__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc4__mlp_kernel_eq_skeleton]; unfold cc4__mlp_kernel_skel
  simp only [k4_part1_eq_skeleton, k4_part2_eq_skeleton]; unfold k4_part1_skel k4_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0; subst hf1; subst hf2; subst hf3; subst hf4; subst hf5; subst hf6; subst hf7; subst hf8; subst hf9
  subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover4_15 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => iblk4 V c 14 t
    | ⟨15, _⟩ => out4_15 (iblk4 V c 0 t) (iblk4 V c 1 t) (iblk4 V c 2 t) (iblk4 V c 3 t) (iblk4 V c 4 t) (iblk4 V c 5 t)
        (iblk4 V c 6 t) (iblk4 V c 7 t) (iblk4 V c 8 t) (iblk4 V c 9 t) (iblk4 V c 10 t) (iblk4 V c 11 t) (iblk4 V c 12 t)
        (iblk4 V c 13 t) (iblk4 V c 14 t)
    | ⟨_ + 16, h⟩ => absurd h (Nat.not_lt.2 (Nat.le_add_left _ _))
  Φ _ := Pipeline.ΦA spec4 c
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := by
  dsimp only [dat4]
theorem owed_eq4 (c : Dev nD) (t : Fin (cfg4.N + 1)) : (dat4 V c).owed t = 0 := by
  dsimp only [dat4]
theorem recorded_eq4 (c : Dev nD) (t : Fin (cfg4.N + 1)) : (dat4 V c).recorded t = Set.univ := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = iblk4 V c 11 t := by dsimp only [dat4]
theorem after4_12 (c : Dev nD) (t : Fin cfg4.N) : (dat4 V c).after 12 t = iblk4 V c 12 t := by dsimp only [dat4]
theorem after4_13 (c : Dev nD) (t : Fin cfg4.N) : (dat4 V c).after 13 t = iblk4 V c 13 t := by dsimp only [dat4]
theorem after4_14 (c : Dev nD) (t : Fin cfg4.N) : (dat4 V c).after 14 t = iblk4 V c 14 t := by dsimp only [dat4]
theorem after4_15 (c : Dev nD) (t : Fin cfg4.N) :
    (dat4 V c).after 15 t = out4_15 (iblk4 V c 0 t) (iblk4 V c 1 t) (iblk4 V c 2 t) (iblk4 V c 3 t) (iblk4 V c 4 t) (iblk4 V c 5 t)
      (iblk4 V c 6 t) (iblk4 V c 7 t) (iblk4 V c 8 t) (iblk4 V c 9 t) (iblk4 V c 10 t) (iblk4 V c 11 t) (iblk4 V c 12 t)
      (iblk4 V c 13 t) (iblk4 V c 14 t) := by dsimp only [dat4]

/-- The body reads each input window at its block of the array (the fifteen windows, five at a time). -/
theorem before4a (c : Dev nD) (t : Fin cfg4.N) :
    (∀ d, (dat4 V c).before 0 t d = iblk4 V c 0 t)
    ∧ (∀ d, (dat4 V c).before 1 t d = iblk4 V c 1 t)
    ∧ (∀ d, (dat4 V c).before 2 t d = iblk4 V c 2 t)
    ∧ (∀ d, (dat4 V c).before 3 t d = iblk4 V c 3 t)
    ∧ (∀ d, (dat4 V c).before 4 t d = iblk4 V c 4 t) := by
  refine ⟨?_, ?_, ?_, ?_, ?_⟩ <;> exact fun d =>
    ((dat4 V c).before_in_eq_fetched _ rfl (fun _ => rfl) (fun _ _ _ => rfl)
      (fun t => by simp only [after4_0, after4_1, after4_2, after4_3, after4_4]; unfold Dat.blockOf iblk4; rw [A_eq4]; try rfl) t d).trans
      (by unfold Dat.fetched Dat.blockOf iblk4; rw [A_eq4]; try rfl)
theorem before4b (c : Dev nD) (t : Fin cfg4.N) :
    (∀ d, (dat4 V c).before 5 t d = iblk4 V c 5 t)
    ∧ (∀ d, (dat4 V c).before 6 t d = iblk4 V c 6 t)
    ∧ (∀ d, (dat4 V c).before 7 t d = iblk4 V c 7 t)
    ∧ (∀ d, (dat4 V c).before 8 t d = iblk4 V c 8 t)
    ∧ (∀ d, (dat4 V c).before 9 t d = iblk4 V c 9 t) := by
  refine ⟨?_, ?_, ?_, ?_, ?_⟩ <;> exact fun d =>
    ((dat4 V c).before_in_eq_fetched _ rfl (fun _ => rfl) (fun _ _ _ => rfl)
      (fun t => by simp only [after4_5, after4_6, after4_7, after4_8, after4_9]; unfold Dat.blockOf iblk4; rw [A_eq4]; try rfl) t d).trans
      (by unfold Dat.fetched Dat.blockOf iblk4; rw [A_eq4]; try rfl)
theorem before4c (c : Dev nD) (t : Fin cfg4.N) :
    (∀ d, (dat4 V c).before 10 t d = iblk4 V c 10 t)
    ∧ (∀ d, (dat4 V c).before 11 t d = iblk4 V c 11 t)
    ∧ (∀ d, (dat4 V c).before 12 t d = iblk4 V c 12 t)
    ∧ (∀ d, (dat4 V c).before 13 t d = iblk4 V c 13 t)
    ∧ (∀ d, (dat4 V c).before 14 t d = iblk4 V c 14 t) := by
  refine ⟨?_, ?_, ?_, ?_, ?_⟩ <;> exact fun d =>
    ((dat4 V c).before_in_eq_fetched _ rfl (fun _ => rfl) (fun _ _ _ => rfl)
      (fun t => by simp only [after4_10, after4_11, after4_12, after4_13, after4_14]; unfold Dat.blockOf iblk4; rw [A_eq4]; try rfl) t d).trans
      (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d))
    ∗ (∃ d, owns (c : Thread nD τ) (st4_13 t) fullShare ((dat4 V c).before 13 t d))
    ∗ (∃ d, owns (c : Thread nD τ) (st4_14 t) fullShare ((dat4 V c).before 14 t d))
    ∗ (∃ d, owns (c : Thread nD τ) (st4_15 t) fullShare ((dat4 V c).before 15 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t)
    ∗ owns (c : Thread nD τ) (st4_13 t) fullShare ((dat4 V c).after 13 t)
    ∗ owns (c : Thread nD τ) (st4_14 t) fullShare ((dat4 V c).after 14 t)
    ∗ owns (c : Thread nD τ) (st4_15 t) fullShare ((dat4 V c).after 15 t))

set_option maxHeartbeats 1000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [(before4a V c t).1, (before4a V c t).2.1, (before4a V c t).2.2.1, (before4a V c t).2.2.2.1, (before4a V c t).2.2.2.2, (before4b V c t).1, (before4b V c t).2.1, (before4b V c t).2.2.1, (before4b V c t).2.2.2.1, (before4b V c t).2.2.2.2, (before4c V c t).1, (before4c V c t).2.1, (before4c V c t).2.2.1, (before4c V c t).2.2.2.1, (before4c V c t).2.2.2.2]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12, after4_13, after4_14, after4_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel4 c Set.univ _ _ _ _ _ _ _ _ _ _ _ _ _ _ _ _ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) (iblk4 V c 7 t)
    (iblk4 V c 8 t) (iblk4 V c 9 t) (iblk4 V c 10 t) (iblk4 V c 11 t) (iblk4 V c 12 t) (iblk4 V c 13 t) (iblk4 V c 14 t) _)
  iframe H0 H1 H2 H3 H4 H5 H6 H7 H8 H9 H10 H11 H12 H13 H14
  isplitl [H15]; · iexists _; iexact H15
  iintro ⟨H0, H1, H2, H3, H4, H5, H6, H7, H8, H9, H10, H11, H12, H13, H14, H15⟩
  iframe

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := BI.Entails.refl _
theorem hout4 (c : Dev nD) : (dat4 V c).Φ (Fin.last cfg4.N) ⊢ (Pipeline.ΦA spec4 c : sProp 𝕄) := BI.Entails.refl _

end Region4

end Cert.KernelIdeal.Gen

end
-- ==== Proof.KI.Run.lean ====
/- The launch of the kernel program: @main is five stretches of host operations alternating with five pipelined regions.
   The contents at every boundary are a fold from the launch memory; a buffer that no stretch writes and no region flushes
   into keeps its launch contents throughout, and the arguments are such buffers. -/
import proofs.«409739_j33028298506661_1_alg».proof.Proof.KI.Sage0
import proofs.«409739_j33028298506661_1_alg».proof.Proof.KI.Sage1
import proofs.«409739_j33028298506661_1_alg».proof.Proof.KI.Sage2
import proofs.«409739_j33028298506661_1_alg».proof.Proof.KI.Pool
import proofs.«409739_j33028298506661_1_alg».proof.Proof.KI.Mlp
import proofs.«409739_j33028298506661_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Exit

variable {cfg : Pipeline.Cfg sig Λ₀} (W : Dev nD → Valuation τ sig (Elt F))
  (dat : (c : Dev nD) → Dat τ (Elt F) Unit ℕ (UR sig nD τ) ℕ cfg c) (c : Dev nD)

/-- What a region leaves: its arrays at what the write-backs leave, every other buffer as entered. -/
def exitW : Valuation τ sig (Elt F) := Pipeline.withArrays cfg.spec c (W c) fun w => (dat c).arrAt w cfg.N

theorem exitW_arr (hinj : Function.Injective (Pipeline.arrRef cfg.spec)) (w : Fin cfg.W) :
    exitW W dat c (Proc.devRef .tc (Pipeline.arrRef cfg.spec w)) = (dat c).arrAt w cfg.N :=
  Pipeline.withArrays_arr cfg.spec hinj c _ _ w

theorem exitW_rest (b : Ref sig .tc) (hb : b ∉ Finset.univ.image (Pipeline.arrRef cfg.spec)) :
    exitW W dat c (Proc.devRef .tc b) = W c (Proc.devRef .tc b) :=
  Pipeline.withArrays_of_ne cfg.spec c _ _ b fun w e => hb (Finset.mem_image.mpr ⟨w, Finset.mem_univ _, e⟩)

/-- A region changes only the arrays its output windows flush into: an input window's array is read back as entered. -/
theorem exitW_keep (hinj : Function.Injective (Pipeline.arrRef cfg.spec))
    (hA : ∀ w, (dat c).A w = W c (Proc.devRef .tc (Pipeline.arrRef cfg.spec w))) (r : Ref sig .tc)
    (h : ∀ w, (cfg.win w).isOut = true → Pipeline.arrRef cfg.spec w ≠ r) :
    exitW W dat c (Proc.devRef .tc r) = W c (Proc.devRef .tc r) := by
  by_cases hr : ∃ w, Pipeline.arrRef cfg.spec w = r
  · obtain ⟨w, rfl⟩ := hr
    exact (exitW_arr W dat c hinj w).trans (((dat c).arrAt_in w (Bool.eq_false_iff.2 fun ho => h w ho rfl) _).trans (hA w))
  · exact exitW_rest W dat c r fun hb => hr (by simpa using hb)

end Exit

variable (m : (ℓ : Loc nD τ sig) → Buf (Elt F) ℓ) (ρ : Dev nD → PrngReg)

/-- A boundary's contents read at the core's own references. -/
abbrev rd (W : Dev nD → Valuation τ sig (Elt F)) (c : Dev nD) (b : Ref sig .tc) : Buf (Elt F) ((c : Thread nD τ).loc b) := W c b

/-! The contents at each boundary of @main: the launch memory, then alternately a stretch's results and a region's exit. -/

abbrev W0 : Dev nD → Valuation τ sig (Elt F) := fun c b => (s₀ m ρ).mem ((c : Dev nD), b)
abbrev W1 : Dev nD → Valuation τ sig (Elt F) := fun c => StableHlo.after hostOps0 (W0 m ρ c)
abbrev E1 := rd (W1 m ρ)
def W2 : Dev nD → Valuation τ sig (Elt F) := exitW (W1 m ρ) (dat0 (E1 m ρ))
abbrev W3 : Dev nD → Valuation τ sig (Elt F) := fun c => StableHlo.after hostOps1 (W2 m ρ c)
abbrev E3 := rd (W3 m ρ)
def W4 : Dev nD → Valuation τ sig (Elt F) := exitW (W3 m ρ) (dat1 (E3 m ρ))
abbrev W5 : Dev nD → Valuation τ sig (Elt F) := fun c => StableHlo.after hostOps2 (W4 m ρ c)
abbrev E5 := rd (W5 m ρ)
def W6 : Dev nD → Valuation τ sig (Elt F) := exitW (W5 m ρ) (dat2 (E5 m ρ))
abbrev W7 : Dev nD → Valuation τ sig (Elt F) := fun c => StableHlo.after hostOps3 (W6 m ρ c)
abbrev E7 := rd (W7 m ρ)
def W8 : Dev nD → Valuation τ sig (Elt F) := exitW (W7 m ρ) (dat3 (E7 m ρ))
abbrev W9 : Dev nD → Valuation τ sig (Elt F) := fun c => StableHlo.after hostOps4 (W8 m ρ c)
abbrev E9 := rd (W9 m ρ)
def W10 : Dev nD → Valuation τ sig (Elt F) := exitW (W9 m ρ) (dat4 (E9 m ρ))

/-- No stretch writes `r` and it is no region's output array. -/
abbrev Quiet (r : Ref sig .tc) : Prop :=
  r ∉ hostOps0_W ∧ r ≠ main_v24 ∧ r ∉ hostOps1_W ∧ r ≠ main_v38 ∧ r ∉ hostOps2_W ∧ r ≠ main_v52 ∧ r ∉ hostOps3_W ∧ r ≠ main_v54 ∧ r ∉ hostOps4_W ∧ r ≠ main_v74

section Keep
variable (c : Dev nD) (r : Ref sig .tc)
theorem keep1 (h : r ∉ hostOps0_W) : W1 m ρ c (Proc.devRef .tc r) = W0 m ρ c (Proc.devRef .tc r) :=
  StableHlo.after_of_writes_sub hostOps0 _ hostOps0_writes h
theorem keep2 (h : r ≠ main_v24) : W2 m ρ c (Proc.devRef .tc r) = W1 m ρ c (Proc.devRef .tc r) :=
  exitW_keep _ _ c launch0.win.arr_inj (A_eq0 (E1 m ρ) c) r fun w ho e =>
    h (e.symm.trans ((by decide : ∀ w, (cfg0.win w).isOut = true → Pipeline.arrRef spec0 w = main_v24) w ho))
theorem keep3 (h : r ∉ hostOps1_W) : W3 m ρ c (Proc.devRef .tc r) = W2 m ρ c (Proc.devRef .tc r) :=
  StableHlo.after_of_writes_sub hostOps1 _ hostOps1_writes h
theorem keep4 (h : r ≠ main_v38) : W4 m ρ c (Proc.devRef .tc r) = W3 m ρ c (Proc.devRef .tc r) :=
  exitW_keep _ _ c launch1.win.arr_inj (A_eq1 (E3 m ρ) c) r fun w ho e =>
    h (e.symm.trans ((by decide : ∀ w, (cfg1.win w).isOut = true → Pipeline.arrRef spec1 w = main_v38) w ho))
theorem keep5 (h : r ∉ hostOps2_W) : W5 m ρ c (Proc.devRef .tc r) = W4 m ρ c (Proc.devRef .tc r) :=
  StableHlo.after_of_writes_sub hostOps2 _ hostOps2_writes h
theorem keep6 (h : r ≠ main_v52) : W6 m ρ c (Proc.devRef .tc r) = W5 m ρ c (Proc.devRef .tc r) :=
  exitW_keep _ _ c launch2.win.arr_inj (A_eq2 (E5 m ρ) c) r fun w ho e =>
    h (e.symm.trans ((by decide : ∀ w, (cfg2.win w).isOut = true → Pipeline.arrRef spec2 w = main_v52) w ho))
theorem keep7 (h : r ∉ hostOps3_W) : W7 m ρ c (Proc.devRef .tc r) = W6 m ρ c (Proc.devRef .tc r) :=
  StableHlo.after_of_writes_sub hostOps3 _ hostOps3_writes h
theorem keep8 (h : r ≠ main_v54) : W8 m ρ c (Proc.devRef .tc r) = W7 m ρ c (Proc.devRef .tc r) :=
  exitW_keep _ _ c launch3.win.arr_inj (A_eq3 (E7 m ρ) c) r fun w ho e =>
    h (e.symm.trans ((by decide : ∀ w, (cfg3.win w).isOut = true → Pipeline.arrRef spec3 w = main_v54) w ho))
theorem keep9 (h : r ∉ hostOps4_W) : W9 m ρ c (Proc.devRef .tc r) = W8 m ρ c (Proc.devRef .tc r) :=
  StableHlo.after_of_writes_sub hostOps4 _ hostOps4_writes h
theorem keep10 (h : r ≠ main_v74) : W10 m ρ c (Proc.devRef .tc r) = W9 m ρ c (Proc.devRef .tc r) :=
  exitW_keep _ _ c launch4.win.arr_inj (A_eq4 (E9 m ρ) c) r fun w ho e =>
    h (e.symm.trans ((by decide : ∀ w, (cfg4.win w).isOut = true → Pipeline.arrRef spec4 w = main_v74) w ho))

/-- A quiet buffer holds its launch contents at every boundary. -/
theorem q1 (h : Quiet r) : W1 m ρ c (Proc.devRef .tc r) = W0 m ρ c (Proc.devRef .tc r) := keep1 m ρ c r h.1
theorem q2 (h : Quiet r) : W2 m ρ c (Proc.devRef .tc r) = W0 m ρ c (Proc.devRef .tc r) := (keep2 m ρ c r h.2.1).trans (q1 m ρ c r h)
theorem q3 (h : Quiet r) : W3 m ρ c (Proc.devRef .tc r) = W0 m ρ c (Proc.devRef .tc r) := (keep3 m ρ c r h.2.2.1).trans (q2 m ρ c r h)
theorem q4 (h : Quiet r) : W4 m ρ c (Proc.devRef .tc r) = W0 m ρ c (Proc.devRef .tc r) := (keep4 m ρ c r h.2.2.2.1).trans (q3 m ρ c r h)
theorem q5 (h : Quiet r) : W5 m ρ c (Proc.devRef .tc r) = W0 m ρ c (Proc.devRef .tc r) := (keep5 m ρ c r h.2.2.2.2.1).trans (q4 m ρ c r h)
theorem q6 (h : Quiet r) : W6 m ρ c (Proc.devRef .tc r) = W0 m ρ c (Proc.devRef .tc r) := (keep6 m ρ c r h.2.2.2.2.2.1).trans (q5 m ρ c r h)
theorem q7 (h : Quiet r) : W7 m ρ c (Proc.devRef .tc r) = W0 m ρ c (Proc.devRef .tc r) := (keep7 m ρ c r h.2.2.2.2.2.2.1).trans (q6 m ρ c r h)
theorem q8 (h : Quiet r) : W8 m ρ c (Proc.devRef .tc r) = W0 m ρ c (Proc.devRef .tc r) := (keep8 m ρ c r h.2.2.2.2.2.2.2.1).trans (q7 m ρ c r h)
theorem q9 (h : Quiet r) : W9 m ρ c (Proc.devRef .tc r) = W0 m ρ c (Proc.devRef .tc r) := (keep9 m ρ c r h.2.2.2.2.2.2.2.2.1).trans (q8 m ρ c r h)
theorem q10 (h : Quiet r) : W10 m ρ c (Proc.devRef .tc r) = W0 m ρ c (Proc.devRef .tc r) := (keep10 m ρ c r h.2.2.2.2.2.2.2.2.2).trans (q9 m ρ c r h)
end Keep

/-! The proof data family, the thread state, and the regions as segments. -/

abbrev padm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) padm p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c

abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W10 m ρ c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false

/-- A region with no semaphore of its own, no table and nothing owed, as a segment from the contents `WI` to `exitW WI`. -/
def mkReg (p : Fin 5) (lf : Pipeline.LaunchFacts (nD := nD) (τ := τ) cfgs p) (WI : Dev nD → Valuation τ sig (Elt F))
    (hbody : ∀ c, BodyObligation (pdats m ρ p c) (defs₀ (F := F)) Variants.none () Set.univ)
    (howed : ∀ c t, (pdats m ρ p c).owed t = 0) (hrec : ∀ c, (pdats m ρ p c).recorded 0 = Set.univ)
    (hq : ∀ c w, (pdats m ρ p c).q w = fullShare)
    (hA : ∀ c w, (pdats m ρ p c).A w = rd WI c (Pipeline.arrRef (Pipeline.pin (pcfgs (F := F)) padm p).spec w))
    (hΦ0 : ∀ c, (Pipeline.ΦA (Pipeline.pin (pcfgs (F := F)) padm p).spec c : sProp 𝕄) ⊢ (pdats m ρ p c).Φ 0)
    (hΦN : ∀ c, (pdats m ρ p c).Φ (Fin.last (Pipeline.pin (pcfgs (F := F)) padm p).N) ⊢ (Pipeline.ΦA (Pipeline.pin (pcfgs (F := F)) padm p).spec c : sProp 𝕄)) :
    Pipeline.RegionSeg (pcfgs (F := F)) padm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (WI c) ∗ R c)
  post c := iprop(StableHlo.held (c : Thread nD τ) (Pipeline.ucRefs τ sig) (exitW WI (pdats m ρ p) c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) padm p).spec c (rd WI c)
  hentry c := by
    rw [Pipeline.ownSems0_none]
    have hsplit := Pipeline.arrays_of_unscopedBufs (p := p) (pcfgs (F := F)) padm (pdats m ρ) lf.win lf.arr_whole c
      ((pdats m ρ p c).share_full (hq c)) (rd WI c) (hA c)
    rw [Pipeline.unscopedBufs_held] at hsplit
    unfold Pipeline.Dat.owesAt Pipeline.Dat.bound Pipeline.owesWithin
    rw [howed c 0, hrec c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    refine BI.Entails.trans ?_ (hΦ0 c)
    show iprop(_ ∗ _ ∗ _) ⊢ (Pipeline.ΦA _ c : sProp 𝕄)
    unfold Pipeline.ΦA
    iintro ⟨Hp, -, Hr⟩
    isplitl [Hr]; · iexact Hr
    iexact Hp
  hout c := by
    rw [Pipeline.ownSems0_none]
    refine BI.Entails.trans (hΦN c) ?_
    show (Pipeline.ΦA _ c : sProp 𝕄) ⊢ iprop(_ ∗ _ ∗ _)
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) padm (Ix := Unit) (Name := ℕ) (U := UR sig nD τ) (Lvl := ℕ)
      lf.win lf.arr_whole c (pdats m ρ) ((pdats m ρ p c).share_full (hq c))
      (rd WI c) (rd (exitW WI (pdats m ρ p)) c) ((pdats m ρ p c).arrAt · (Pipeline.pin (pcfgs (F := F)) padm p).N)
      (fun w => (exitW_arr WI (pdats m ρ p) c lf.win.arr_inj w).symm) (exitW_rest WI (pdats m ρ p) c)
    rw [Pipeline.unscopedBufs_held] at hjoin
    unfold Pipeline.Dat.owesAt Pipeline.owesWithin
    rw [howed c (Fin.last _)]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 := mkReg m ρ 0 launch0 (W1 m ρ) (body_obligation0 (E1 m ρ)) (fun _ _ => rfl) (fun _ => rfl) (fun _ _ => rfl)
  (A_eq0 (E1 m ρ)) (hin0 (E1 m ρ)) (hout0 (E1 m ρ))
def reg1 := mkReg m ρ 1 launch1 (W3 m ρ) (body_obligation1 (E3 m ρ)) (fun _ _ => rfl) (fun _ => rfl) (fun _ _ => rfl)
  (A_eq1 (E3 m ρ)) (hin1 (E3 m ρ)) (hout1 (E3 m ρ))
def reg2 := mkReg m ρ 2 launch2 (W5 m ρ) (body_obligation2 (E5 m ρ)) (fun _ _ => rfl) (fun _ => rfl) (fun _ _ => rfl)
  (A_eq2 (E5 m ρ)) (hin2 (E5 m ρ)) (hout2 (E5 m ρ))
def reg3 := mkReg m ρ 3 launch3 (W7 m ρ) (body_obligation3 (E7 m ρ)) (owed_eq3 (E7 m ρ)) (fun c => recorded_eq3 (E7 m ρ) c 0)
  (q_eq3 (E7 m ρ)) (A_eq3 (E7 m ρ)) (hin3 (E7 m ρ)) (hout3 (E7 m ρ))
def reg4 := mkReg m ρ 4 launch4 (W9 m ρ) (body_obligation4 (E9 m ρ)) (owed_eq4 (E9 m ρ)) (fun c => recorded_eq4 (E9 m ρ) c 0)
  (q_eq4 (E9 m ρ)) (A_eq4 (E9 m ρ)) (hin4 (E9 m ρ)) (hout4 (E9 m ρ))

/-- @main's segments in order: a host segment per stretch, a region per kernel call. -/
abbrev msegs : List (Pipeline.Seg (pcfgs (F := F)) padm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
theorem main_run (c : Dev nD) : main (F := F) c = Pipeline.Seg.run (msegs m ρ) := by
  rw [main_chain c, Pipeline.Seg.run_eq_chain]
  rfl

/-- Every weakly fair execution of @main terminates, nothing faulting, every unscoped buffer ending at the last boundary's contents. -/
theorem run_all : θ_run defs (onTc (τ := τ) (main (F := F))) ⟨m, fun _ => 0, ρ⟩ (fun r => ∀ c : Dev nD,
    ∀ b ∈ Pipeline.ucRefs τ sig, r.2.mem ((c : Thread nD τ).1, b) = W10 m ρ c b) :=
  Pipeline.θ_run_regions_kit (pcfgs (F := F)) padm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- Every argument of @main is quiet and unscoped. -/
theorem all_args {P : Ref sig .tc → Prop} (H : ∀ r, Quiet r ∧ ¬ (Proc.devRef .tc r : DevRef τ sig).isScoped → P r) :
    P main_arg0 ∧ P main_arg1 ∧ P main_arg2 ∧ P main_arg3 ∧ P main_arg4 ∧ P main_arg5 ∧ P main_arg6 ∧ P main_arg7 ∧ P main_arg8 ∧ P main_arg9 ∧ P main_arg10 ∧ P main_arg11 ∧ P main_arg12 ∧ P main_arg13 ∧ P main_arg14 ∧ P main_arg15 ∧ P main_arg16 ∧ P main_arg17 ∧ P main_arg18 ∧ P main_arg19 ∧ P main_arg20 ∧ P main_arg21 ∧ P main_arg22 ∧ P main_arg23 ∧ P main_arg24 ∧ P main_arg25 :=
  ⟨H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide)⟩

/-- A memory that holds the last boundary's contents holds a quiet unscoped buffer as launched. -/
theorem kept (c : Dev nD) (mem : (ℓ : Loc nD τ sig) → Buf (Elt F) ℓ)
    (h : ∀ b ∈ Pipeline.ucRefs τ sig, mem ((c : Thread nD τ).1, b) = W10 m ρ c b) (r : Ref sig .tc)
    (hr : Quiet r ∧ ¬ (Proc.devRef .tc r : DevRef τ sig).isScoped) :
    mem ((c : Thread nD τ).loc r) = m ((c : Thread nD τ).loc r) :=
  (h _ (mem_uc r hr.2)).trans (q10 m ρ c r hr.1)

end Cert.KernelIdeal.Gen

end
-- ==== Proof.KI.Host.lean ====
/- What each stretch of host operations leaves in the buffers the regions read, as the composed term of its operations over the
   contents it is entered with. The mean aggregation over the edges: gather the source rows, add them up at the destination rows,
   divide each row by its in-degree. -/
import proofs.«409739_j33028298506661_1_alg».proof.Proof.Gen.KernelIdeal.Launch
import Idealize.ShloMosaic.Lib.StableHlo.Run

set_option maxRecDepth 16384

noncomputable section

namespace Cert.KernelIdeal.Gen

open Idealize.ShloMosaic Idealize.ShloMosaic.TcCoe Idealize.SL.Sem

variable {F : FTy → Type} [FloatOps F]

def srcOf (e : IVec S2x800000 32) : IVec S800000 32 :=
  shapeCast S800000 (extractStridedSlice S1x800000 ![0, 0] e slices_S2x800000_S1x800000_0_0) shapeCasts_S1x800000_S800000

def dstOf (e : IVec S2x800000 32) : IVec S800000 32 :=
  shapeCast S800000 (extractStridedSlice S1x800000 ![1, 0] e slices_S2x800000_S1x800000_1_0) shapeCasts_S1x800000_S800000

def degCol (dst : IVec S800000 32) : FVec F S50000x1 .f32 :=
  broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32)))

def srcCol (src : IVec S800000 32) : IVec S800000x1 32 :=
  broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)

def meanAgg128 (feat : FVec F S50000x128 .f32) (src dst : IVec S800000 32) (deg : FVec F S50000x1 .f32) : FVec F S50000x128 .f32 :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 feat (srcCol src))) (broadcastInDim S50000x128 ![0, 1] bcast_S50000x1_S50000x128_0_1 deg)

def meanAgg64 (feat : FVec F S50000x64 .f32) (src dst : IVec S800000 32) (deg : FVec F S50000x1 .f32) : FVec F S50000x64 .f32 :=
  Host.divf (Host.scatterAdd scatter_S50000x64_S800000x1_S800000x64_1_0_0_1 (broadcastInDim S50000x64 ![] bcast_S_S50000x64 (constant S_ .f32 0x00000000#32)) (broadcastInDim S800000x1 ![0] bcast_S800000_S800000x1_0 dst) (Host.gather gather_S50000x64_S800000x1_S800000x64_1_0_n_n_0_1_164 feat (srcCol src))) (broadcastInDim S50000x64 ![0, 1] bcast_S50000x1_S50000x64_0_1 deg)

def poolMean (psum : FVec F S256x64 .f32) (ids : IVec S50000 32) : FVec F S256x64 .f32 :=
  Host.divf psum (broadcastInDim S256x64 ![0, 1] bcast_S256x1_S256x64_0_1 (broadcastInDim S256x1 ![0] bcast_S256_S256x1_0 (maximumf (Host.scatterAdd scatter_S256_S50000x1_S50000_n_0_0_1 (broadcastInDim S256 ![] bcast_S_S256 (constant S_ .f32 0x00000000#32)) (broadcastInDim S50000x1 ![0] bcast_S50000_S50000x1_0 ids) (broadcastInDim S50000 ![] bcast_S_S50000 (constant S_ .f32 0x3F800000#32))) (broadcastInDim S256 ![] bcast_S_S256 (constant S_ .f32 0x3F800000#32)))))

variable (W : Valuation τ sig (Elt F))

set_option maxHeartbeats 4000000 in
theorem ops0_v1 : StableHlo.after hostOps0 W (Proc.devRef .tc main_v1) = srcOf (W (Proc.devRef .tc main_arg1)) := by
  unfold srcOf; simp only [hostOps0]; after_results_simp <;> rfl
set_option maxHeartbeats 4000000 in
theorem ops0_v3 : StableHlo.after hostOps0 W (Proc.devRef .tc main_v3) = dstOf (W (Proc.devRef .tc main_arg1)) := by
  unfold dstOf; simp only [hostOps0]; after_results_simp <;> rfl
set_option maxHeartbeats 4000000 in
theorem ops0_v10 : StableHlo.after hostOps0 W (Proc.devRef .tc main_v10) = degCol (F := F) (dstOf (W (Proc.devRef .tc main_arg1))) := by
  unfold degCol dstOf; simp only [hostOps0]; after_results_simp <;> rfl
set_option maxHeartbeats 8000000 in
theorem ops0_v22 : StableHlo.after hostOps0 W (Proc.devRef .tc main_v22)
    = meanAgg128 (W (Proc.devRef .tc main_arg0)) (srcOf (W (Proc.devRef .tc main_arg1))) (dstOf (W (Proc.devRef .tc main_arg1))) (degCol (dstOf (W (Proc.devRef .tc main_arg1)))) := by
  unfold meanAgg128 srcCol degCol srcOf dstOf; simp only [hostOps0]; after_results_simp <;> rfl
set_option maxHeartbeats 4000000 in
theorem ops0_v23 : StableHlo.after hostOps0 W (Proc.devRef .tc main_v23) = shapeCast S1x64 (W (Proc.devRef .tc main_arg4)) shapeCasts_S64_S1x64 := by
  simp only [hostOps0]; after_results_simp <;> rfl

set_option maxHeartbeats 4000000 in
theorem ops1_v36 : StableHlo.after hostOps1 W (Proc.devRef .tc main_v36) = meanAgg64 (W (Proc.devRef .tc main_v24)) (W (Proc.devRef .tc main_v1)) (W (Proc.devRef .tc main_v3)) (W (Proc.devRef .tc main_v10)) := by
  unfold meanAgg64 srcCol; simp only [hostOps1]; after_results_simp <;> rfl
set_option maxHeartbeats 4000000 in
theorem ops1_v37 : StableHlo.after hostOps1 W (Proc.devRef .tc main_v37) = shapeCast S1x64 (W (Proc.devRef .tc main_arg7)) shapeCasts_S64_S1x64 := by
  simp only [hostOps1]; after_results_simp <;> rfl
set_option maxHeartbeats 4000000 in
theorem ops2_v50 : StableHlo.after hostOps2 W (Proc.devRef .tc main_v50) = meanAgg64 (W (Proc.devRef .tc main_v38)) (W (Proc.devRef .tc main_v1)) (W (Proc.devRef .tc main_v3)) (W (Proc.devRef .tc main_v10)) := by
  unfold meanAgg64 srcCol; simp only [hostOps2]; after_results_simp <;> rfl
set_option maxHeartbeats 4000000 in
theorem ops2_v51 : StableHlo.after hostOps2 W (Proc.devRef .tc main_v51) = shapeCast S1x64 (W (Proc.devRef .tc main_arg10)) shapeCasts_S64_S1x64 := by
  simp only [hostOps2]; after_results_simp <;> rfl

theorem ops3_v53 : StableHlo.after hostOps3 W (Proc.devRef .tc main_v53) = shapeCast S50000x1 (W (Proc.devRef .tc main_arg2)) shapeCasts_S50000_S50000x1 := by
  simp only [hostOps3]; after_results_simp <;> rfl
set_option maxHeartbeats 4000000 in
theorem ops4_v63 : StableHlo.after hostOps4 W (Proc.devRef .tc main_v63) = poolMean (W (Proc.devRef .tc main_v54)) (W (Proc.devRef .tc main_arg2)) := by
  unfold poolMean; simp only [hostOps4]; after_results_simp <;> rfl
set_option maxHeartbeats 4000000 in
theorem ops4_v64 : StableHlo.after hostOps4 W (Proc.devRef .tc main_v64) = shapeCast S1x256 (W (Proc.devRef .tc main_arg13)) shapeCasts_S256_S1x256 := by
  simp only [hostOps4]; after_results_simp <;> rfl
set_option maxHeartbeats 4000000 in
theorem ops4_v65 : StableHlo.after hostOps4 W (Proc.devRef .tc main_v65) = shapeCast S1x256 (W (Proc.devRef .tc main_arg14)) shapeCasts_S256_S1x256 := by
  simp only [hostOps4]; after_results_simp <;> rfl
set_option maxHeartbeats 4000000 in
theorem ops4_v66 : StableHlo.after hostOps4 W (Proc.devRef .tc main_v66) = shapeCast S1x256 (W (Proc.devRef .tc main_arg15)) shapeCasts_S256_S1x256 := by
  simp only [hostOps4]; after_results_simp <;> rfl
set_option maxHeartbeats 4000000 in
theorem ops4_v67 : StableHlo.after hostOps4 W (Proc.devRef .tc main_v67) = shapeCast S1x128 (W (Proc.devRef .tc main_arg17)) shapeCasts_S128_S1x128 := by
  simp only [hostOps4]; after_results_simp <;> rfl
set_option maxHeartbeats 4000000 in
theorem ops4_v68 : StableHlo.after hostOps4 W (Proc.devRef .tc main_v68) = shapeCast S1x128 (W (Proc.devRef .tc main_arg18)) shapeCasts_S128_S1x128 := by
  simp only [hostOps4]; after_results_simp <;> rfl
set_option maxHeartbeats 4000000 in
theorem ops4_v69 : StableHlo.after hostOps4 W (Proc.devRef .tc main_v69) = shapeCast S1x128 (W (Proc.devRef .tc main_arg19)) shapeCasts_S128_S1x128 := by
  simp only [hostOps4]; after_results_simp <;> rfl
set_option maxHeartbeats 4000000 in
theorem ops4_v70 : StableHlo.after hostOps4 W (Proc.devRef .tc main_v70) = shapeCast S1x64 (W (Proc.devRef .tc main_arg21)) shapeCasts_S64_S1x64 := by
  simp only [hostOps4]; after_results_simp <;> rfl
set_option maxHeartbeats 4000000 in
theorem ops4_v71 : StableHlo.after hostOps4 W (Proc.devRef .tc main_v71) = shapeCast S1x64 (W (Proc.devRef .tc main_arg22)) shapeCasts_S64_S1x64 := by
  simp only [hostOps4]; after_results_simp <;> rfl
set_option maxHeartbeats 4000000 in
theorem ops4_v72 : StableHlo.after hostOps4 W (Proc.devRef .tc main_v72) = shapeCast S1x64 (W (Proc.devRef .tc main_arg23)) shapeCasts_S64_S1x64 := by
  simp only [hostOps4]; after_results_simp <;> rfl
set_option maxHeartbeats 4000000 in
theorem ops4_v73 : StableHlo.after hostOps4 W (Proc.devRef .tc main_v73) = shapeCast S1x10 (W (Proc.devRef .tc main_arg25)) shapeCasts_S10_S1x10 := by
  simp only [hostOps4]; after_results_simp <;> rfl

end Cert.KernelIdeal.Gen

end
-- ==== Proof.KI.SageValue0.lean ====
/- The value of layer 1's region on the extended reals: after its ten points the output array is `agg · Wl + bl + x · Wr` of the
   five arrays it reads. The row blocks tile the rows, and a block of rows of a matrix product is the product of that block of rows. -/
import proofs.«409739_j33028298506661_1_alg».proof.Proof.KI.Sage0
import proofs.«409739_j33028298506661_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost
import Idealize.ShloMosaic.Lib.StackMember

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx

def sageRows0 (agg x : FVec Ideal Cert.ReferenceIdeal.S50000x128 .f32) (wl : FVec Ideal Cert.ReferenceIdeal.S128x64 .f32)
    (bl : FVec Ideal Cert.ReferenceIdeal.S1x64 .f32) (wr : FVec Ideal Cert.ReferenceIdeal.S128x64 .f32) :
    FVec Ideal Cert.ReferenceIdeal.S50000x64 .f32 :=
  addf (addf (Host.dotGeneral Cert.ReferenceIdeal.dot_S50000x128_S128x64_S50000x64_1_0_0_1_n_n none agg wl)
      (broadcastInDim Cert.ReferenceIdeal.S50000x64 ![0, 1] Cert.ReferenceIdeal.Facts₀.bcast_S1x64_S50000x64_0_1 bl))
    (Host.dotGeneral Cert.ReferenceIdeal.dot_S50000x128_S128x64_S50000x64_1_0_0_1_n_n none x wr)

theorem hz0 : (![0, 0] : Fin 2 → Nat) = fun _ => 0 := funext fun a => by fin_cases a <;> rfl

theorem pay_apply0 (a x : FVec Ideal S5000x128 .f32) (wl wr : FVec Ideal S128x64 .f32) (b : FVec Ideal S1x64 .f32)
    (p : Fin 5000) (q : Fin 64) :
    k0_pay1 (F := Ideal) a x wl wr b (ix2 p q)
      = Host.dotGeneral dot_S5000x128_S128x64_S5000x64_1_0_0_1_n_n none a wl (ix2 p q) + b (ix2 (0 : Fin 1) q)
        + Host.dotGeneral dot_S5000x128_S128x64_S5000x64_1_0_0_1_n_n none x wr (ix2 p q) := by
  have hb : ∀ (v : FVec Ideal S1x64 .f32) (h : S1x64.Broadcasts S5000x64),
      broadcastTo S5000x64 v h (ix2 p q) = v (ix2 (0 : Fin 1) q) := fun v h =>
    broadcastTo_apply v h (ix2 p q) (ix2 (0 : Fin 1) q) (fun a => by
      match a with
      | ⟨0, _⟩ => rfl
      | ⟨1, _⟩ => rfl)
  unfold k0_pay1
  simp only [shapeCast_self, matmul_zero_eq_dotGeneral, addf_apply, hb]
  rfl

theorem blk_read0 (agg x : FVec Ideal Cert.ReferenceIdeal.S50000x128 .f32) (wl wr : FVec Ideal Cert.ReferenceIdeal.S128x64 .f32)
    (bl : FVec Ideal Cert.ReferenceIdeal.S1x64 .f32) (a xb : FVec Ideal S5000x128 .f32) (wlb wrb : FVec Ideal S128x64 .f32)
    (bb : FVec Ideal S1x64 .f32) (o : Nat)
    (ha : ∀ (y : S5000x128.Idx) (z : Cert.ReferenceIdeal.S50000x128.Idx), (z 0).val = o + (y 0).val → (z 1).val = (y 1).val → a y = agg z)
    (hx : ∀ (y : S5000x128.Idx) (z : Cert.ReferenceIdeal.S50000x128.Idx), (z 0).val = o + (y 0).val → (z 1).val = (y 1).val → xb y = x z)
    (hwl : wlb = wl) (hwr : wrb = wr) (hbl : bb = bl)
    (j : S5000x64.Idx) (i : Cert.ReferenceIdeal.S50000x64.Idx) (h0 : (i 0).val = o + (j 0).val) (h1 : (i 1).val = (j 1).val) :
    k0_pay1 (F := Ideal) a xb wlb wrb bb j = sageRows0 agg x wl bl wr i := by
  subst hwl hwr hbl
  obtain ⟨p, q, rfl⟩ : ∃ (p : Fin 5000) (q : Fin 64), j = ix2 p q := ⟨j 0, j 1, eq_ix2 j⟩
  obtain ⟨r, q', rfl⟩ : ∃ (r : Fin 50000) (q' : Fin 64), i = ix2 r q' := ⟨i 0, i 1, eq_ix2 i⟩
  obtain rfl : q = q' := Fin.ext h1.symm
  have hr : r.val = o + p.val := h0
  rw [pay_apply0]
  unfold sageRows0
  simp only [addf_apply]
  rw [broadcastInDim_oneRow_apply]
  have hd : ∀ (A : FVec Ideal Cert.ReferenceIdeal.S50000x128 .f32) (Ab : FVec Ideal S5000x128 .f32) (B : FVec Ideal S128x64 .f32),
      (∀ (y : S5000x128.Idx) (z : Cert.ReferenceIdeal.S50000x128.Idx), (z 0).val = o + (y 0).val → (z 1).val = (y 1).val → Ab y = A z) →
      Host.dotGeneral dot_S5000x128_S128x64_S5000x64_1_0_0_1_n_n none Ab B (ix2 p q)
        = Host.dotGeneral Cert.ReferenceIdeal.dot_S50000x128_S128x64_S50000x64_1_0_0_1_n_n none A B (ix2 r q) := fun A Ab B hA => by
    refine (StackMember.dotGeneral_plain_apply none Ab B p q).trans ?_
    refine Eq.trans ?_ (StackMember.dotGeneral_plain_apply none A B r q).symm
    exact Finset.sum_congr rfl fun c _ => by rw [hA (ix2 p c) (ix2 r c) hr rfl]
  rw [hd agg a wlb ha, hd x xb wrb hx]

theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem win0_0_read (V : (c : Dev nD) → (b : Ref sig .tc) → Buf (Elt Ideal) ((c : Thread nD τ).loc b)) (c : Dev nD) (t : Fin cfg0.N)
    (y : S5000x128.Idx) (z : Cert.ReferenceIdeal.S50000x128.Idx) (hr : (z 0).val = 5000 * t.val + (y 0).val) (hc : (z 1).val = (y 1).val) :
    (iblk0 V c 0 t : Vec Ideal S5000x128 .f32) y = (V c (Pipeline.arrRef spec0 0) : Cert.ReferenceIdeal.S50000x128.Idx → Ideal .f32) z := by
  obtain ⟨e00, e01, e10, e11, -⟩ := idx_facts0 t
  show V c (Pipeline.arrRef spec0 0) (((cfg0.win 0).blk t).view.emb y) = V c (Pipeline.arrRef spec0 0) z
  refine congrArg _ (funext fun a => Fin.ext ?_)
  match a with
  | ⟨0, _⟩ => show win0_0.index t (0 : Fin 2) * 5000 + 1 * (y 0).val = (z 0).val; omega
  | ⟨1, _⟩ => show win0_0.index t (1 : Fin 2) * S5000x128.size 1 + 1 * (y 1).val = (z 1).val; rw [e01]; omega

theorem win0_1_read (V : (c : Dev nD) → (b : Ref sig .tc) → Buf (Elt Ideal) ((c : Thread nD τ).loc b)) (c : Dev nD) (t : Fin cfg0.N)
    (y : S5000x128.Idx) (z : Cert.ReferenceIdeal.S50000x128.Idx) (hr : (z 0).val = 5000 * t.val + (y 0).val) (hc : (z 1).val = (y 1).val) :
    (iblk0 V c 1 t : Vec Ideal S5000x128 .f32) y = (V c (Pipeline.arrRef spec0 1) : Cert.ReferenceIdeal.S50000x128.Idx → Ideal .f32) z := by
  obtain ⟨e00, e01, e10, e11, -⟩ := idx_facts0 t
  show V c (Pipeline.arrRef spec0 1) (((cfg0.win 1).blk t).view.emb y) = V c (Pipeline.arrRef spec0 1) z
  refine congrArg _ (funext fun a => Fin.ext ?_)
  match a with
  | ⟨0, _⟩ => show win0_1.index t (0 : Fin 2) * 5000 + 1 * (y 0).val = (z 0).val; omega
  | ⟨1, _⟩ => show win0_1.index t (1 : Fin 2) * S5000x128.size 1 + 1 * (y 1).val = (z 1).val; rw [e11]; omega

theorem win0_2_read (V : (c : Dev nD) → (b : Ref sig .tc) → Buf (Elt Ideal) ((c : Thread nD τ).loc b)) (c : Dev nD) (t : Fin cfg0.N) :
    (iblk0 V c 2 t : Vec Ideal S128x64 .f32) = (V c (Pipeline.arrRef spec0 2) : Cert.ReferenceIdeal.S128x64.Idx → Ideal .f32) := by
  obtain ⟨e00, e01, e10, e11, e20, e21, e30, e31, e40, e41, -⟩ := idx_facts0 t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * S128x64.size 0 + 1 * (y 0).val = (y 0).val; rw [e20]; omega
  | ⟨1, _⟩ => show win0_2.index t (1 : Fin 2) * S128x64.size 1 + 1 * (y 1).val = (y 1).val; rw [e21]; omega

theorem win0_3_read (V : (c : Dev nD) → (b : Ref sig .tc) → Buf (Elt Ideal) ((c : Thread nD τ).loc b)) (c : Dev nD) (t : Fin cfg0.N) :
    (iblk0 V c 3 t : Vec Ideal S1x64 .f32) = (V c (Pipeline.arrRef spec0 3) : Cert.ReferenceIdeal.S1x64.Idx → Ideal .f32) := by
  obtain ⟨e00, e01, e10, e11, e20, e21, e30, e31, e40, e41, -⟩ := idx_facts0 t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * S1x64.size 0 + 1 * (y 0).val = (y 0).val; rw [e30]; omega
  | ⟨1, _⟩ => show win0_3.index t (1 : Fin 2) * S1x64.size 1 + 1 * (y 1).val = (y 1).val; rw [e31]; omega

theorem win0_4_read (V : (c : Dev nD) → (b : Ref sig .tc) → Buf (Elt Ideal) ((c : Thread nD τ).loc b)) (c : Dev nD) (t : Fin cfg0.N) :
    (iblk0 V c 4 t : Vec Ideal S128x64 .f32) = (V c (Pipeline.arrRef spec0 4) : Cert.ReferenceIdeal.S128x64.Idx → Ideal .f32) := by
  obtain ⟨e00, e01, e10, e11, e20, e21, e30, e31, e40, e41, -⟩ := idx_facts0 t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * S128x64.size 0 + 1 * (y 0).val = (y 0).val; rw [e40]; omega
  | ⟨1, _⟩ => show win0_4.index t (1 : Fin 2) * S128x64.size 1 + 1 * (y 1).val = (y 1).val; rw [e41]; omega

theorem flushed_eq0 (V : (c : Dev nD) → (b : Ref sig .tc) → Buf (Elt Ideal) ((c : Thread nD τ).loc b)) (c : Dev nD) (t : Fin cfg0.N) :
    (dat0 (F := Ideal) V c).flushed 5 t = ((cfg0.win 5).blk t).view.read (Elt Ideal)
      (sageRows0 (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 (F := Ideal) V c).after 5 t) = _
  rw [after0_5]
  unfold out0_5
  rw [View.canon_unit_zero hz0]
  simp only [View.ld_unit_zero (S := S5000x128) hz0, View.ld_unit_zero (S := S128x64) hz0, View.ld_unit_zero (S := S1x64) hz0]
  obtain ⟨e00, e01, e10, e11, e20, e21, e30, e31, e40, e41, e50, e51⟩ := idx_facts0 t
  funext j
  show k0_pay1 (F := Ideal) (iblk0 V c 0 t) (iblk0 V c 1 t) (iblk0 V c 2 t) (iblk0 V c 4 t) (iblk0 V c 3 t) j
    = sageRows0 (V c (Pipeline.arrRef spec0 0)) (V c (Pipeline.arrRef spec0 1)) (V c (Pipeline.arrRef spec0 2))
        (V c (Pipeline.arrRef spec0 3)) (V c (Pipeline.arrRef spec0 4)) (((cfg0.win 5).blk t).view.emb j)
  refine blk_read0 (V c (Pipeline.arrRef spec0 0)) (V c (Pipeline.arrRef spec0 1)) (V c (Pipeline.arrRef spec0 2)) (V c (Pipeline.arrRef spec0 4))
    (V c (Pipeline.arrRef spec0 3)) (iblk0 V c 0 t) (iblk0 V c 1 t) (iblk0 V c 2 t) (iblk0 V c 4 t) (iblk0 V c 3 t) (5000 * t.val)
    (win0_0_read V c t) (win0_1_read V c t) (win0_2_read V c t) (win0_4_read V c t) (win0_3_read V c t)
    j (((cfg0.win 5).blk t).view.emb j) ?_ ?_
  · show win0_5.index t (0 : Fin 2) * 5000 + 1 * (j 0).val = 5000 * t.val + (j 0).val; omega
  · show win0_5.index t (1 : Fin 2) * 64 + 1 * (j 1).val = (j 1).val; omega

theorem mem_blk0 (t : Fin cfg0.N) (i : Cert.ReferenceIdeal.S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole (Pipeline.arrRef spec0 5)).slice (win0_5.rect t)).set ↔ _
  rw [View.set_slice_whole, Rect.mem_set_unit]
  exact Iff.rfl

theorem cover_rows0 (i : Cert.ReferenceIdeal.S50000x64.Idx) :
    ∃ t : Fin cfg0.N, (cfg0.win 5).flush t = true ∧ i ∈ ((cfg0.win 5).blk t).view.set := by
  have hN : cfg0.N = 10 := N_0
  have hi0 : (i 0).val < 50000 := (i 0).isLt
  have hi1 : (i 1).val < 64 := (i 1).isLt
  let t : Fin cfg0.N := ⟨(i 0).val / 5000, by omega⟩
  obtain ⟨e00, e01, e10, e11, e20, e21, e30, e31, e40, e41, e50, e51⟩ := idx_facts0 t
  have ht : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

theorem final0 (V : (c : Dev nD) → (b : Ref sig .tc) → Buf (Elt Ideal) ((c : Thread nD τ).loc b)) (c : Dev nD) :
    (dat0 (F := Ideal) V c).arrAt 5 cfg0.N = sageRows0 (V c (Pipeline.arrRef spec0 0)) (V c (Pipeline.arrRef spec0 1))
      (V c (Pipeline.arrRef spec0 2)) (V c (Pipeline.arrRef spec0 3)) (V c (Pipeline.arrRef spec0 4)) :=
  (dat0 (F := Ideal) V c).arrAt_eq_of_cover 5 _ (fun t _ => flushed_eq0 V c t) cover_rows0

end Cert.KernelIdeal.Gen

end
-- ==== Proof.KI.SageValue1.lean ====
/- The value of layer 2's region on the extended reals: after its ten points the output array is `agg · Wl + bl + x · Wr` of the
   five arrays it reads. The row blocks tile the rows, and a block of rows of a matrix product is the product of that block of rows. -/
import proofs.«409739_j33028298506661_1_alg».proof.Proof.KI.Sage1
import proofs.«409739_j33028298506661_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost
import Idealize.ShloMosaic.Lib.StackMember

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx

def sageRows1 (agg x : FVec Ideal Cert.ReferenceIdeal.S50000x64 .f32) (wl : FVec Ideal Cert.ReferenceIdeal.S64x64 .f32)
    (bl : FVec Ideal Cert.ReferenceIdeal.S1x64 .f32) (wr : FVec Ideal Cert.ReferenceIdeal.S64x64 .f32) :
    FVec Ideal Cert.ReferenceIdeal.S50000x64 .f32 :=
  addf (addf (Host.dotGeneral Cert.ReferenceIdeal.dot_S50000x64_S64x64_S50000x64_1_0_0_1_n_n none agg wl)
      (broadcastInDim Cert.ReferenceIdeal.S50000x64 ![0, 1] Cert.ReferenceIdeal.Facts₀.bcast_S1x64_S50000x64_0_1 bl))
    (Host.dotGeneral Cert.ReferenceIdeal.dot_S50000x64_S64x64_S50000x64_1_0_0_1_n_n none x wr)

theorem hz1 : (![0, 0] : Fin 2 → Nat) = fun _ => 0 := funext fun a => by fin_cases a <;> rfl

theorem pay_apply1 (a x : FVec Ideal S5000x64 .f32) (wl wr : FVec Ideal S64x64 .f32) (b : FVec Ideal S1x64 .f32)
    (p : Fin 5000) (q : Fin 64) :
    k1_pay1 (F := Ideal) a x wl wr b (ix2 p q)
      = Host.dotGeneral dot_S5000x64_S64x64_S5000x64_1_0_0_1_n_n none a wl (ix2 p q) + b (ix2 (0 : Fin 1) q)
        + Host.dotGeneral dot_S5000x64_S64x64_S5000x64_1_0_0_1_n_n none x wr (ix2 p q) := by
  have hb : ∀ (v : FVec Ideal S1x64 .f32) (h : S1x64.Broadcasts S5000x64),
      broadcastTo S5000x64 v h (ix2 p q) = v (ix2 (0 : Fin 1) q) := fun v h =>
    broadcastTo_apply v h (ix2 p q) (ix2 (0 : Fin 1) q) (fun a => by
      match a with
      | ⟨0, _⟩ => rfl
      | ⟨1, _⟩ => rfl)
  unfold k1_pay1
  simp only [shapeCast_self, matmul_zero_eq_dotGeneral, addf_apply, hb]
  rfl

theorem blk_read1 (agg x : FVec Ideal Cert.ReferenceIdeal.S50000x64 .f32) (wl wr : FVec Ideal Cert.ReferenceIdeal.S64x64 .f32)
    (bl : FVec Ideal Cert.ReferenceIdeal.S1x64 .f32) (a xb : FVec Ideal S5000x64 .f32) (wlb wrb : FVec Ideal S64x64 .f32)
    (bb : FVec Ideal S1x64 .f32) (o : Nat)
    (ha : ∀ (y : S5000x64.Idx) (z : Cert.ReferenceIdeal.S50000x64.Idx), (z 0).val = o + (y 0).val → (z 1).val = (y 1).val → a y = agg z)
    (hx : ∀ (y : S5000x64.Idx) (z : Cert.ReferenceIdeal.S50000x64.Idx), (z 0).val = o + (y 0).val → (z 1).val = (y 1).val → xb y = x z)
    (hwl : wlb = wl) (hwr : wrb = wr) (hbl : bb = bl)
    (j : S5000x64.Idx) (i : Cert.ReferenceIdeal.S50000x64.Idx) (h0 : (i 0).val = o + (j 0).val) (h1 : (i 1).val = (j 1).val) :
    k1_pay1 (F := Ideal) a xb wlb wrb bb j = sageRows1 agg x wl bl wr i := by
  subst hwl hwr hbl
  obtain ⟨p, q, rfl⟩ : ∃ (p : Fin 5000) (q : Fin 64), j = ix2 p q := ⟨j 0, j 1, eq_ix2 j⟩
  obtain ⟨r, q', rfl⟩ : ∃ (r : Fin 50000) (q' : Fin 64), i = ix2 r q' := ⟨i 0, i 1, eq_ix2 i⟩
  obtain rfl : q = q' := Fin.ext h1.symm
  have hr : r.val = o + p.val := h0
  rw [pay_apply1]
  unfold sageRows1
  simp only [addf_apply]
  rw [broadcastInDim_oneRow_apply]
  have hd : ∀ (A : FVec Ideal Cert.ReferenceIdeal.S50000x64 .f32) (Ab : FVec Ideal S5000x64 .f32) (B : FVec Ideal S64x64 .f32),
      (∀ (y : S5000x64.Idx) (z : Cert.ReferenceIdeal.S50000x64.Idx), (z 0).val = o + (y 0).val → (z 1).val = (y 1).val → Ab y = A z) →
      Host.dotGeneral dot_S5000x64_S64x64_S5000x64_1_0_0_1_n_n none Ab B (ix2 p q)
        = Host.dotGeneral Cert.ReferenceIdeal.dot_S50000x64_S64x64_S50000x64_1_0_0_1_n_n none A B (ix2 r q) := fun A Ab B hA => by
    refine (StackMember.dotGeneral_plain_apply none Ab B p q).trans ?_
    refine Eq.trans ?_ (StackMember.dotGeneral_plain_apply none A B r q).symm
    exact Finset.sum_congr rfl fun c _ => by rw [hA (ix2 p c) (ix2 r c) hr rfl]
  rw [hd agg a wlb ha, hd x xb wrb hx]

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem win1_0_read (V : (c : Dev nD) → (b : Ref sig .tc) → Buf (Elt Ideal) ((c : Thread nD τ).loc b)) (c : Dev nD) (t : Fin cfg1.N)
    (y : S5000x64.Idx) (z : Cert.ReferenceIdeal.S50000x64.Idx) (hr : (z 0).val = 5000 * t.val + (y 0).val) (hc : (z 1).val = (y 1).val) :
    (iblk1 V c 0 t : Vec Ideal S5000x64 .f32) y = (V c (Pipeline.arrRef spec1 0) : Cert.ReferenceIdeal.S50000x64.Idx → Ideal .f32) z := by
  obtain ⟨e00, e01, e10, e11, -⟩ := idx_facts1 t
  show V c (Pipeline.arrRef spec1 0) (((cfg1.win 0).blk t).view.emb y) = V c (Pipeline.arrRef spec1 0) z
  refine congrArg _ (funext fun a => Fin.ext ?_)
  match a with
  | ⟨0, _⟩ => show win1_0.index t (0 : Fin 2) * 5000 + 1 * (y 0).val = (z 0).val; omega
  | ⟨1, _⟩ => show win1_0.index t (1 : Fin 2) * S5000x64.size 1 + 1 * (y 1).val = (z 1).val; rw [e01]; omega

theorem win1_1_read (V : (c : Dev nD) → (b : Ref sig .tc) → Buf (Elt Ideal) ((c : Thread nD τ).loc b)) (c : Dev nD) (t : Fin cfg1.N)
    (y : S5000x64.Idx) (z : Cert.ReferenceIdeal.S50000x64.Idx) (hr : (z 0).val = 5000 * t.val + (y 0).val) (hc : (z 1).val = (y 1).val) :
    (iblk1 V c 1 t : Vec Ideal S5000x64 .f32) y = (V c (Pipeline.arrRef spec1 1) : Cert.ReferenceIdeal.S50000x64.Idx → Ideal .f32) z := by
  obtain ⟨e00, e01, e10, e11, -⟩ := idx_facts1 t
  show V c (Pipeline.arrRef spec1 1) (((cfg1.win 1).blk t).view.emb y) = V c (Pipeline.arrRef spec1 1) z
  refine congrArg _ (funext fun a => Fin.ext ?_)
  match a with
  | ⟨0, _⟩ => show win1_1.index t (0 : Fin 2) * 5000 + 1 * (y 0).val = (z 0).val; omega
  | ⟨1, _⟩ => show win1_1.index t (1 : Fin 2) * S5000x64.size 1 + 1 * (y 1).val = (z 1).val; rw [e11]; omega

theorem win1_2_read (V : (c : Dev nD) → (b : Ref sig .tc) → Buf (Elt Ideal) ((c : Thread nD τ).loc b)) (c : Dev nD) (t : Fin cfg1.N) :
    (iblk1 V c 2 t : Vec Ideal S64x64 .f32) = (V c (Pipeline.arrRef spec1 2) : Cert.ReferenceIdeal.S64x64.Idx → Ideal .f32) := by
  obtain ⟨e00, e01, e10, e11, e20, e21, e30, e31, e40, e41, -⟩ := idx_facts1 t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * S64x64.size 0 + 1 * (y 0).val = (y 0).val; rw [e20]; omega
  | ⟨1, _⟩ => show win1_2.index t (1 : Fin 2) * S64x64.size 1 + 1 * (y 1).val = (y 1).val; rw [e21]; omega

theorem win1_3_read (V : (c : Dev nD) → (b : Ref sig .tc) → Buf (Elt Ideal) ((c : Thread nD τ).loc b)) (c : Dev nD) (t : Fin cfg1.N) :
    (iblk1 V c 3 t : Vec Ideal S1x64 .f32) = (V c (Pipeline.arrRef spec1 3) : Cert.ReferenceIdeal.S1x64.Idx → Ideal .f32) := by
  obtain ⟨e00, e01, e10, e11, e20, e21, e30, e31, e40, e41, -⟩ := idx_facts1 t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * S1x64.size 0 + 1 * (y 0).val = (y 0).val; rw [e30]; omega
  | ⟨1, _⟩ => show win1_3.index t (1 : Fin 2) * S1x64.size 1 + 1 * (y 1).val = (y 1).val; rw [e31]; omega

theorem win1_4_read (V : (c : Dev nD) → (b : Ref sig .tc) → Buf (Elt Ideal) ((c : Thread nD τ).loc b)) (c : Dev nD) (t : Fin cfg1.N) :
    (iblk1 V c 4 t : Vec Ideal S64x64 .f32) = (V c (Pipeline.arrRef spec1 4) : Cert.ReferenceIdeal.S64x64.Idx → Ideal .f32) := by
  obtain ⟨e00, e01, e10, e11, e20, e21, e30, e31, e40, e41, -⟩ := idx_facts1 t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * S64x64.size 0 + 1 * (y 0).val = (y 0).val; rw [e40]; omega
  | ⟨1, _⟩ => show win1_4.index t (1 : Fin 2) * S64x64.size 1 + 1 * (y 1).val = (y 1).val; rw [e41]; omega

theorem flushed_eq1 (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal)
      (sageRows1 (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 (F := Ideal) V c).after 5 t) = _
  rw [after1_5]
  unfold out1_5
  rw [View.canon_unit_zero hz1]
  simp only [View.ld_unit_zero (S := S5000x64) hz1, View.ld_unit_zero (S := S64x64) hz1, View.ld_unit_zero (S := S1x64) hz1]
  obtain ⟨e00, e01, e10, e11, e20, e21, e30, e31, e40, e41, e50, e51⟩ := idx_facts1 t
  funext j
  show k1_pay1 (F := Ideal) (iblk1 V c 0 t) (iblk1 V c 1 t) (iblk1 V c 2 t) (iblk1 V c 4 t) (iblk1 V c 3 t) j
    = sageRows1 (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb j)
  refine blk_read1 (V c (Pipeline.arrRef spec1 0)) (V c (Pipeline.arrRef spec1 1)) (V c (Pipeline.arrRef spec1 2)) (V c (Pipeline.arrRef spec1 4))
    (V c (Pipeline.arrRef spec1 3)) (iblk1 V c 0 t) (iblk1 V c 1 t) (iblk1 V c 2 t) (iblk1 V c 4 t) (iblk1 V c 3 t) (5000 * t.val)
    (win1_0_read V c t) (win1_1_read V c t) (win1_2_read V c t) (win1_4_read V c t) (win1_3_read V c t)
    j (((cfg1.win 5).blk t).view.emb j) ?_ ?_
  · show win1_5.index t (0 : Fin 2) * 5000 + 1 * (j 0).val = 5000 * t.val + (j 0).val; omega
  · show win1_5.index t (1 : Fin 2) * 64 + 1 * (j 1).val = (j 1).val; omega

theorem mem_blk1 (t : Fin cfg1.N) (i : Cert.ReferenceIdeal.S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole (Pipeline.arrRef spec1 5)).slice (win1_5.rect t)).set ↔ _
  rw [View.set_slice_whole, Rect.mem_set_unit]
  exact Iff.rfl

theorem cover_rows1 (i : Cert.ReferenceIdeal.S50000x64.Idx) :
    ∃ t : Fin cfg1.N, (cfg1.win 5).flush t = true ∧ i ∈ ((cfg1.win 5).blk t).view.set := by
  have hN : cfg1.N = 10 := N_1
  have hi0 : (i 0).val < 50000 := (i 0).isLt
  have hi1 : (i 1).val < 64 := (i 1).isLt
  let t : Fin cfg1.N := ⟨(i 0).val / 5000, by omega⟩
  obtain ⟨e00, e01, e10, e11, e20, e21, e30, e31, e40, e41, e50, e51⟩ := idx_facts1 t
  have ht : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

theorem final1 (V : (c : Dev nD) → (b : Ref sig .tc) → Buf (Elt Ideal) ((c : Thread nD τ).loc b)) (c : Dev nD) :
    (dat1 (F := Ideal) V c).arrAt 5 cfg1.N = sageRows1 (V c (Pipeline.arrRef spec1 0)) (V c (Pipeline.arrRef spec1 1))
      (V c (Pipeline.arrRef spec1 2)) (V c (Pipeline.arrRef spec1 3)) (V c (Pipeline.arrRef spec1 4)) :=
  (dat1 (F := Ideal) V c).arrAt_eq_of_cover 5 _ (fun t _ => flushed_eq1 V c t) cover_rows1

end Cert.KernelIdeal.Gen

end
-- ==== Proof.KI.SageValue2.lean ====
/- The value of layer 3's region: the same transform as layer 2's, on its own arrays; the two bodies' payloads are one function. -/
import proofs.«409739_j33028298506661_1_alg».proof.Proof.KI.Sage2
import proofs.«409739_j33028298506661_1_alg».proof.Proof.KI.SageValue1
import proofs.«409739_j33028298506661_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost
import Idealize.ShloMosaic.Lib.StackMember

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem win2_0_read (V : (c : Dev nD) → (b : Ref sig .tc) → Buf (Elt Ideal) ((c : Thread nD τ).loc b)) (c : Dev nD) (t : Fin cfg2.N)
    (y : S5000x64.Idx) (z : Cert.ReferenceIdeal.S50000x64.Idx) (hr : (z 0).val = 5000 * t.val + (y 0).val) (hc : (z 1).val = (y 1).val) :
    (iblk2 V c 0 t : Vec Ideal S5000x64 .f32) y = (V c (Pipeline.arrRef spec2 0) : Cert.ReferenceIdeal.S50000x64.Idx → Ideal .f32) z := by
  obtain ⟨e00, e01, e10, e11, -⟩ := idx_facts2 t
  show V c (Pipeline.arrRef spec2 0) (((cfg2.win 0).blk t).view.emb y) = V c (Pipeline.arrRef spec2 0) z
  refine congrArg _ (funext fun a => Fin.ext ?_)
  match a with
  | ⟨0, _⟩ => show win2_0.index t (0 : Fin 2) * 5000 + 1 * (y 0).val = (z 0).val; omega
  | ⟨1, _⟩ => show win2_0.index t (1 : Fin 2) * S5000x64.size 1 + 1 * (y 1).val = (z 1).val; rw [e01]; omega

theorem win2_1_read (V : (c : Dev nD) → (b : Ref sig .tc) → Buf (Elt Ideal) ((c : Thread nD τ).loc b)) (c : Dev nD) (t : Fin cfg2.N)
    (y : S5000x64.Idx) (z : Cert.ReferenceIdeal.S50000x64.Idx) (hr : (z 0).val = 5000 * t.val + (y 0).val) (hc : (z 1).val = (y 1).val) :
    (iblk2 V c 1 t : Vec Ideal S5000x64 .f32) y = (V c (Pipeline.arrRef spec2 1) : Cert.ReferenceIdeal.S50000x64.Idx → Ideal .f32) z := by
  obtain ⟨e00, e01, e10, e11, -⟩ := idx_facts2 t
  show V c (Pipeline.arrRef spec2 1) (((cfg2.win 1).blk t).view.emb y) = V c (Pipeline.arrRef spec2 1) z
  refine congrArg _ (funext fun a => Fin.ext ?_)
  match a with
  | ⟨0, _⟩ => show win2_1.index t (0 : Fin 2) * 5000 + 1 * (y 0).val = (z 0).val; omega
  | ⟨1, _⟩ => show win2_1.index t (1 : Fin 2) * S5000x64.size 1 + 1 * (y 1).val = (z 1).val; rw [e11]; omega

theorem win2_2_read (V : (c : Dev nD) → (b : Ref sig .tc) → Buf (Elt Ideal) ((c : Thread nD τ).loc b)) (c : Dev nD) (t : Fin cfg2.N) :
    (iblk2 V c 2 t : Vec Ideal S64x64 .f32) = (V c (Pipeline.arrRef spec2 2) : Cert.ReferenceIdeal.S64x64.Idx → Ideal .f32) := by
  obtain ⟨e00, e01, e10, e11, e20, e21, e30, e31, e40, e41, -⟩ := idx_facts2 t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * S64x64.size 0 + 1 * (y 0).val = (y 0).val; rw [e20]; omega
  | ⟨1, _⟩ => show win2_2.index t (1 : Fin 2) * S64x64.size 1 + 1 * (y 1).val = (y 1).val; rw [e21]; omega

theorem win2_3_read (V : (c : Dev nD) → (b : Ref sig .tc) → Buf (Elt Ideal) ((c : Thread nD τ).loc b)) (c : Dev nD) (t : Fin cfg2.N) :
    (iblk2 V c 3 t : Vec Ideal S1x64 .f32) = (V c (Pipeline.arrRef spec2 3) : Cert.ReferenceIdeal.S1x64.Idx → Ideal .f32) := by
  obtain ⟨e00, e01, e10, e11, e20, e21, e30, e31, e40, e41, -⟩ := idx_facts2 t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * S1x64.size 0 + 1 * (y 0).val = (y 0).val; rw [e30]; omega
  | ⟨1, _⟩ => show win2_3.index t (1 : Fin 2) * S1x64.size 1 + 1 * (y 1).val = (y 1).val; rw [e31]; omega

theorem win2_4_read (V : (c : Dev nD) → (b : Ref sig .tc) → Buf (Elt Ideal) ((c : Thread nD τ).loc b)) (c : Dev nD) (t : Fin cfg2.N) :
    (iblk2 V c 4 t : Vec Ideal S64x64 .f32) = (V c (Pipeline.arrRef spec2 4) : Cert.ReferenceIdeal.S64x64.Idx → Ideal .f32) := by
  obtain ⟨e00, e01, e10, e11, e20, e21, e30, e31, e40, e41, -⟩ := idx_facts2 t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * S64x64.size 0 + 1 * (y 0).val = (y 0).val; rw [e40]; omega
  | ⟨1, _⟩ => show win2_4.index t (1 : Fin 2) * S64x64.size 1 + 1 * (y 1).val = (y 1).val; rw [e41]; omega

theorem flushed_eq2 (V : (c : Dev nD) → (b : Ref sig .tc) → Buf (Elt Ideal) ((c : Thread nD τ).loc b)) (c : Dev nD) (t : Fin cfg2.N) :
    (dat2 (F := Ideal) V c).flushed 5 t = ((cfg2.win 5).blk t).view.read (Elt Ideal)
      (sageRows1 (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 (F := Ideal) V c).after 5 t) = _
  rw [after2_5]
  unfold out2_5
  rw [View.canon_unit_zero hz1]
  simp only [View.ld_unit_zero (S := S5000x64) hz1, View.ld_unit_zero (S := S64x64) hz1, View.ld_unit_zero (S := S1x64) hz1]
  obtain ⟨e00, e01, e10, e11, e20, e21, e30, e31, e40, e41, e50, e51⟩ := idx_facts2 t
  funext j
  show k2_pay1 (F := Ideal) (iblk2 V c 0 t) (iblk2 V c 1 t) (iblk2 V c 2 t) (iblk2 V c 4 t) (iblk2 V c 3 t) j
    = sageRows1 (V c (Pipeline.arrRef spec2 0)) (V c (Pipeline.arrRef spec2 1)) (V c (Pipeline.arrRef spec2 2))
        (V c (Pipeline.arrRef spec2 3)) (V c (Pipeline.arrRef spec2 4)) (((cfg2.win 5).blk t).view.emb j)
  refine blk_read1 (V c (Pipeline.arrRef spec2 0)) (V c (Pipeline.arrRef spec2 1)) (V c (Pipeline.arrRef spec2 2)) (V c (Pipeline.arrRef spec2 4))
    (V c (Pipeline.arrRef spec2 3)) (iblk2 V c 0 t) (iblk2 V c 1 t) (iblk2 V c 2 t) (iblk2 V c 4 t) (iblk2 V c 3 t) (5000 * t.val)
    (win2_0_read V c t) (win2_1_read V c t) (win2_2_read V c t) (win2_4_read V c t) (win2_3_read V c t)
    j (((cfg2.win 5).blk t).view.emb j) ?_ ?_
  · show win2_5.index t (0 : Fin 2) * 5000 + 1 * (j 0).val = 5000 * t.val + (j 0).val; omega
  · show win2_5.index t (1 : Fin 2) * 64 + 1 * (j 1).val = (j 1).val; omega

theorem mem_blk2 (t : Fin cfg2.N) (i : Cert.ReferenceIdeal.S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole (Pipeline.arrRef spec2 5)).slice (win2_5.rect t)).set ↔ _
  rw [View.set_slice_whole, Rect.mem_set_unit]
  exact Iff.rfl

theorem cover_rows2 (i : Cert.ReferenceIdeal.S50000x64.Idx) :
    ∃ t : Fin cfg2.N, (cfg2.win 5).flush t = true ∧ i ∈ ((cfg2.win 5).blk t).view.set := by
  have hN : cfg2.N = 10 := N_2
  have hi0 : (i 0).val < 50000 := (i 0).isLt
  have hi1 : (i 1).val < 64 := (i 1).isLt
  let t : Fin cfg2.N := ⟨(i 0).val / 5000, by omega⟩
  obtain ⟨e00, e01, e10, e11, e20, e21, e30, e31, e40, e41, e50, e51⟩ := idx_facts2 t
  have ht : t.val = (i 0).val / 5000 := rfl
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

theorem final2 (V : (c : Dev nD) → (b : Ref sig .tc) → Buf (Elt Ideal) ((c : Thread nD τ).loc b)) (c : Dev nD) :
    (dat2 (F := Ideal) V c).arrAt 5 cfg2.N = sageRows1 (V c (Pipeline.arrRef spec2 0)) (V c (Pipeline.arrRef spec2 1))
      (V c (Pipeline.arrRef spec2 2)) (V c (Pipeline.arrRef spec2 3)) (V c (Pipeline.arrRef spec2 4)) :=
  (dat2 (F := Ideal) V c).arrAt_eq_of_cover 5 _ (fun t _ => flushed_eq2 V c t) cover_rows2

end Cert.KernelIdeal.Gen

end
-- ==== Proof.KI.PoolRows.lean ====
/- The reference's pooled sum on whole arrays: the node rows added up by graph id, an id outside the 256 graphs contributing nothing. -/
import proofs.«409739_j33028298506661_1_alg».proof.Proof.Gen.ReferenceIdeal
import Idealize.ShloMosaic.PureOps.Ideal

noncomputable section

namespace Cert.KernelIdeal.Gen

open Idealize.ShloMosaic

def poolRows (h : FVec Ideal Cert.ReferenceIdeal.S50000x64 .f32) (ids : IVec Cert.ReferenceIdeal.S50000x1 32) :
    FVec Ideal Cert.ReferenceIdeal.S256x64 .f32 :=
  Host.scatterAdd Cert.ReferenceIdeal.scatter_S256x64_S50000x1_S50000x64_1_0_0_1
    (broadcastInDim Cert.ReferenceIdeal.S256x64 ![] Cert.ReferenceIdeal.Facts₀.bcast_S_S256x64
      (constant Cert.ReferenceIdeal.S_ .f32 0x00000000#32)) ids h

end Cert.KernelIdeal.Gen

end
-- ==== Proof.KI.KVal.lean ====
/- The kernel program's result as a composition of named functions of its launch arguments: the edges' endpoints and in-degrees,
   three layers `h ↦ meanAgg(h) · Wl + bl + h · Wr`, the pooled sums per graph over the node counts, the perceptron. -/
import proofs.«409739_j33028298506661_1_alg».proof.Proof.KI.Host
import proofs.«409739_j33028298506661_1_alg».proof.Proof.KI.SageValue0
import proofs.«409739_j33028298506661_1_alg».proof.Proof.KI.SageValue1
import proofs.«409739_j33028298506661_1_alg».proof.Proof.KI.SageValue2
import proofs.«409739_j33028298506661_1_alg».proof.Proof.KI.PoolRows

noncomputable section

namespace Cert.KernelIdeal.Gen

open Idealize.ShloMosaic Idealize.ShloMosaic.TcCoe Idealize.SL.Sem

variable (A : Valuation τ sig (Elt Ideal))

abbrev arg (r : Ref sig .tc) := A (Proc.devRef .tc r)

def kSrc : IVec S800000 32 := srcOf (arg A main_arg1)
def kDst : IVec S800000 32 := dstOf (arg A main_arg1)
def kDeg : FVec Ideal S50000x1 .f32 := degCol (kDst A)

def kH1 : FVec Ideal S50000x64 .f32 :=
  sageRows0 (meanAgg128 (arg A main_arg0) (kSrc A) (kDst A) (kDeg A)) (arg A main_arg0) (arg A main_arg3)
    (shapeCast S1x64 (arg A main_arg4) shapeCasts_S64_S1x64) (arg A main_arg5)
def kH2 : FVec Ideal S50000x64 .f32 :=
  sageRows1 (meanAgg64 (kH1 A) (kSrc A) (kDst A) (kDeg A)) (kH1 A) (arg A main_arg6)
    (shapeCast S1x64 (arg A main_arg7) shapeCasts_S64_S1x64) (arg A main_arg8)
def kH3 : FVec Ideal S50000x64 .f32 :=
  sageRows1 (meanAgg64 (kH2 A) (kSrc A) (kDst A) (kDeg A)) (kH2 A) (arg A main_arg9)
    (shapeCast S1x64 (arg A main_arg10) shapeCasts_S64_S1x64) (arg A main_arg11)

def kPsum : FVec Ideal S256x64 .f32 := poolRows (kH3 A) (shapeCast S50000x1 (arg A main_arg2) shapeCasts_S50000_S50000x1)
def kPooled : FVec Ideal S256x64 .f32 := poolMean (kPsum A) (arg A main_arg2)

def kOut : FVec Ideal S256x10 .f32 :=
  k4_pay1 (k4_pay4 (k4_pay2 (kPooled A) (arg A main_arg12) (shapeCast S1x256 (arg A main_arg13) shapeCasts_S256_S1x256)
        (shapeCast S1x256 (arg A main_arg14) shapeCasts_S256_S1x256) (shapeCast S1x256 (arg A main_arg15) shapeCasts_S256_S1x256))
      (k4_pay3 (arg A main_arg16)) (constant S256x128 .f32 0x00000000#32)
      (shapeCast S1x128 (arg A main_arg17) shapeCasts_S128_S1x128) (shapeCast S1x128 (arg A main_arg18) shapeCasts_S128_S1x128)
      (shapeCast S1x128 (arg A main_arg19) shapeCasts_S128_S1x128) (arg A main_arg20)
      (shapeCast S1x64 (arg A main_arg21) shapeCasts_S64_S1x64))
    (k4_pay5 (shapeCast S1x64 (arg A main_arg22) shapeCasts_S64_S1x64)) (shapeCast S1x64 (arg A main_arg23) shapeCasts_S64_S1x64)
    (arg A main_arg24) (shapeCast S1x10 (arg A main_arg25) shapeCasts_S10_S1x10)

end Cert.KernelIdeal.Gen

end
-- ==== Proof.KI.PoolValue.lean ====
/- The value of the pooling region on the extended reals. The kernel adds, row block by row block, the product of a one-hot
   matrix (graph against node) with the block of node rows into an accumulator that starts at zero; the reference adds every node's
   row into the row of its graph id. Both are, at graph g and feature q, the sum of h[r, q] over the nodes r whose id is g. -/
import proofs.«409739_j33028298506661_1_alg».proof.Proof.KI.Pool
import proofs.«409739_j33028298506661_1_alg».proof.Proof.KI.PoolRows
import proofs.«409739_j33028298506661_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost
import Idealize.ShloMosaic.Lib.StableHlo.Predicate

set_option maxRecDepth 16384

noncomputable section

namespace Cert.KernelIdeal.Gen

open Idealize.ShloMosaic Idealize.ShloMosaic.TcCoe
open Idealize.ShloMosaic.Pipeline (Dat Cfg Window)

open ValueIdx

open ValueIdx

theorem lhs_pool_0 (i : S256x64.Idx) (p : dot_S256x5000_S5000x64_S256x64_1_0_0_1_n_n.contr.Idx) :
    (dot_S256x5000_S5000x64_S256x64_1_0_0_1_n_n.lhsIdx i p 0).val = (i 0).val := by
  unfold DotDims.lhsIdx
  rw [dif_neg (show ¬(0 : Fin S256x5000.rank) ∈ dot_S256x5000_S5000x64_S256x64_1_0_0_1_n_n.lhsBatch by decide),
    dif_pos (show (0 : Fin S256x5000.rank) ∈ dot_S256x5000_S5000x64_S256x64_1_0_0_1_n_n.lhsNonContracting by decide)]
  rfl

theorem lhs_pool_1 (i : S256x64.Idx) (p : dot_S256x5000_S5000x64_S256x64_1_0_0_1_n_n.contr.Idx) :
    (dot_S256x5000_S5000x64_S256x64_1_0_0_1_n_n.lhsIdx i p 1).val = (p ⟨0, by decide⟩).val :=
  dot_S256x5000_S5000x64_S256x64_1_0_0_1_n_n.lhsIdx_val_of_single rfl i p

theorem rhs_pool_0 (i : S256x64.Idx) (p : dot_S256x5000_S5000x64_S256x64_1_0_0_1_n_n.contr.Idx) :
    (dot_S256x5000_S5000x64_S256x64_1_0_0_1_n_n.rhsIdx i p 0).val = (p ⟨0, by decide⟩).val :=
  dot_S256x5000_S5000x64_S256x64_1_0_0_1_n_n.rhsIdx_val_of_single rfl i p

theorem rhs_pool_1 (i : S256x64.Idx) (p : dot_S256x5000_S5000x64_S256x64_1_0_0_1_n_n.contr.Idx) :
    (dot_S256x5000_S5000x64_S256x64_1_0_0_1_n_n.rhsIdx i p 1).val = (i 1).val := by
  unfold DotDims.rhsIdx
  rw [dif_neg (show ¬(1 : Fin S5000x64.rank) ∈ dot_S256x5000_S5000x64_S256x64_1_0_0_1_n_n.rhsBatch by decide),
    dif_pos (show (1 : Fin S5000x64.rank) ∈ dot_S256x5000_S5000x64_S256x64_1_0_0_1_n_n.rhsNonContracting by decide)]
  rfl

theorem onehot_mul (x w : BitVec 32) (y : EReal) :
    ((((IntOp.cmpi .eq x w).setWidth 32).toInt : ℝ) : EReal) * y = if x = w then y else 0 := by
  by_cases hx : x = w
  · rw [if_pos hx, StableHlo.Predicate.cmpi_eq_iff.mpr hx, show ((1#1 : BitVec 1).setWidth 32).toInt = 1 from by decide]
    simp
  · rw [if_neg hx, eq_zero_of_ne_one (mt StableHlo.Predicate.cmpi_eq_iff.mp hx),
      show ((0#1 : BitVec 1).setWidth 32).toInt = 0 from by decide]
    simp

theorem pay2_apply (b : Vec Ideal S5000x1 .i32) (h : Vec Ideal S5000x64 .f32) (a : Vec Ideal S256x64 .f32)
    (g : Fin 256) (q : Fin 64) :
    k3_pay2 (F := Ideal) b h a (ix2 g q)
      = a (ix2 g q) + ∑ k : Fin 5000, (if b (ix2 k (0 : Fin 1)) = BitVec.ofNat 32 g.val then h (ix2 k q) else 0) := by
  unfold k3_pay2
  simp only [shapeCast_self, matmul]
  rw [addf_apply, Ideal.matmul_constant_zero_apply,
    ← Equiv.sum_comp (contrEquiv1 dot_S256x5000_S5000x64_S256x64_1_0_0_1_n_n 5000 rfl rfl).symm]
  refine congrArg (a (ix2 g q) + ·) (Finset.sum_congr rfl fun k _ => ?_)
  have hk := contrEquiv1_symm_val dot_S256x5000_S5000x64_S256x64_1_0_0_1_n_n 5000 rfl rfl k
  have el : dot_S256x5000_S5000x64_S256x64_1_0_0_1_n_n.lhsIdx (ix2 g q)
      ((contrEquiv1 dot_S256x5000_S5000x64_S256x64_1_0_0_1_n_n 5000 rfl rfl).symm k) = ix2 g k :=
    funext fun ax => Fin.ext (by
      match ax with
      | ⟨0, _⟩ => exact lhs_pool_0 _ _
      | ⟨1, _⟩ => exact (lhs_pool_1 _ _).trans hk)
  have er : dot_S256x5000_S5000x64_S256x64_1_0_0_1_n_n.rhsIdx (ix2 g q)
      ((contrEquiv1 dot_S256x5000_S5000x64_S256x64_1_0_0_1_n_n 5000 rfl rfl).symm k) = ix2 k q :=
    funext fun ax => Fin.ext (by
      match ax with
      | ⟨0, _⟩ => exact (rhs_pool_0 _ _).trans hk
      | ⟨1, _⟩ => exact rhs_pool_1 _ _)
  rw [el, er, transpose_ix2_apply, truncf_apply, truncf_apply, sitofp_apply, extui_apply]
  have hcol : broadcastTo S5000x256 b broadcasts_S5000x1_S5000x256 (ix2 k g) = b (ix2 k (0 : Fin 1)) :=
    broadcastTo_apply b broadcasts_S5000x1_S5000x256 (ix2 k g) (ix2 k (0 : Fin 1)) fun ax => by
      match ax with
      | ⟨0, _⟩ => rfl
      | ⟨1, _⟩ => rfl
  have hiota : iota .tc S5000x256 32 [1] iota_S5000x256_d1_w32 (ix2 k g) = BitVec.ofNat 32 g.val := by
    show BitVec.ofNat 32 (0 * 256 + g.val) = _
    rw [Nat.zero_mul, Nat.zero_add]
  show ((((IntOp.cmpi .eq (broadcastTo S5000x256 b broadcasts_S5000x1_S5000x256 (ix2 k g))
      (iota .tc S5000x256 32 [1] iota_S5000x256_d1_w32 (ix2 k g))).setWidth 32).toInt : ℝ) : EReal) * h (ix2 k q) = _
  rw [hcol, hiota]
  exact onehot_mul _ _ _

theorem start_pool_0 (ids : IVec Cert.ReferenceIdeal.S50000x1 32) (r : Fin 50000) (q : Fin 64) :
    Cert.ReferenceIdeal.scatter_S256x64_S50000x1_S50000x64_1_0_0_1.start (ix2 r q) ids 0 = (ids (ix2 r (0 : Fin 1))).toInt := by
  unfold ScatterDims.start
  rw [dif_pos (show (0 : Fin Cert.ReferenceIdeal.S256x64.rank) ∈ Cert.ReferenceIdeal.scatter_S256x64_S50000x1_S50000x64_1_0_0_1.scatterDimsToOperandDims by decide)]
  refine congrArg BitVec.toInt (congrArg ids (funext fun b => ?_))
  match b with
  | ⟨0, _⟩ => rfl
  | ⟨1, _⟩ => rfl

theorem start_pool_1 (ids : IVec Cert.ReferenceIdeal.S50000x1 32) (r : Fin 50000) (q : Fin 64) :
    Cert.ReferenceIdeal.scatter_S256x64_S50000x1_S50000x64_1_0_0_1.start (ix2 r q) ids 1 = 0 := by
  unfold ScatterDims.start
  rw [dif_neg (show ¬(1 : Fin Cert.ReferenceIdeal.S256x64.rank) ∈ Cert.ReferenceIdeal.scatter_S256x64_S50000x1_S50000x64_1_0_0_1.scatterDimsToOperandDims by decide)]

theorem window_pool_0 (r : Fin 50000) (q : Fin 64) :
    Cert.ReferenceIdeal.scatter_S256x64_S50000x1_S50000x64_1_0_0_1.window (ix2 r q : Cert.ReferenceIdeal.S50000x64.Idx) 0 = 0 := by
  unfold ScatterDims.window
  rw [dif_neg (show ¬(0 : Fin Cert.ReferenceIdeal.S256x64.rank) ∈ Cert.ReferenceIdeal.scatter_S256x64_S50000x1_S50000x64_1_0_0_1.sKept by decide)]

theorem window_pool_1 (r : Fin 50000) (q : Fin 64) :
    Cert.ReferenceIdeal.scatter_S256x64_S50000x1_S50000x64_1_0_0_1.window (ix2 r q : Cert.ReferenceIdeal.S50000x64.Idx) 1 = q.val := by
  unfold ScatterDims.window
  rw [dif_pos (show (1 : Fin Cert.ReferenceIdeal.S256x64.rank) ∈ Cert.ReferenceIdeal.scatter_S256x64_S50000x1_S50000x64_1_0_0_1.sKept by decide)]
  rfl

theorem resultIdx_pool (ids : IVec Cert.ReferenceIdeal.S50000x1 32) (r : Fin 50000) (q : Fin 64) (g : Fin 256) (q' : Fin 64) :
    Cert.ReferenceIdeal.scatter_S256x64_S50000x1_S50000x64_1_0_0_1.resultIdx? (ix2 r q) ids = some (ix2 g q')
      ↔ (ids (ix2 r (0 : Fin 1))).toInt = (g.val : ℤ) ∧ q = q' := by
  have hg := g.isLt
  have hq := q.isLt
  unfold ScatterDims.resultIdx?
  split
  · rename_i hin
    rw [Option.some.injEq]
    constructor
    · intro e
      have e0 : (Cert.ReferenceIdeal.scatter_S256x64_S50000x1_S50000x64_1_0_0_1.start (ix2 r q) ids 0 + Cert.ReferenceIdeal.scatter_S256x64_S50000x1_S50000x64_1_0_0_1.window (ix2 r q) 0).toNat = g.val :=
        congrArg (fun f : Cert.ReferenceIdeal.S256x64.Idx => (f 0).val) e
      have e1 : (Cert.ReferenceIdeal.scatter_S256x64_S50000x1_S50000x64_1_0_0_1.start (ix2 r q) ids 1 + Cert.ReferenceIdeal.scatter_S256x64_S50000x1_S50000x64_1_0_0_1.window (ix2 r q) 1).toNat = q'.val :=
        congrArg (fun f : Cert.ReferenceIdeal.S256x64.Idx => (f 1).val) e
      have h0 := (hin 0).1
      rw [start_pool_0, window_pool_0] at e0 h0
      rw [start_pool_1, window_pool_1] at e1
      exact ⟨by omega, Fin.ext (by omega)⟩
    · rintro ⟨e0, rfl⟩
      funext a
      apply Fin.ext
      match a with
      | ⟨0, _⟩ =>
        show (Cert.ReferenceIdeal.scatter_S256x64_S50000x1_S50000x64_1_0_0_1.start (ix2 r q) ids 0 + Cert.ReferenceIdeal.scatter_S256x64_S50000x1_S50000x64_1_0_0_1.window (ix2 r q) 0).toNat = g.val
        rw [start_pool_0, window_pool_0, e0]; omega
      | ⟨1, _⟩ =>
        show (Cert.ReferenceIdeal.scatter_S256x64_S50000x1_S50000x64_1_0_0_1.start (ix2 r q) ids 1 + Cert.ReferenceIdeal.scatter_S256x64_S50000x1_S50000x64_1_0_0_1.window (ix2 r q) 1).toNat = q.val
        rw [start_pool_1, window_pool_1]; omega
  · rename_i hout
    constructor
    · intro e; exact absurd e (by simp)
    · rintro ⟨e0, rfl⟩
      exfalso
      apply hout
      intro a
      match a with
      | ⟨0, _⟩ =>
        show 0 ≤ Cert.ReferenceIdeal.scatter_S256x64_S50000x1_S50000x64_1_0_0_1.start (ix2 r q) ids 0 + Cert.ReferenceIdeal.scatter_S256x64_S50000x1_S50000x64_1_0_0_1.window (ix2 r q) 0
          ∧ Cert.ReferenceIdeal.scatter_S256x64_S50000x1_S50000x64_1_0_0_1.start (ix2 r q) ids 0 + Cert.ReferenceIdeal.scatter_S256x64_S50000x1_S50000x64_1_0_0_1.window (ix2 r q) 0 < ((256 : ℕ) : ℤ)
        rw [start_pool_0, window_pool_0, e0]; omega
      | ⟨1, _⟩ =>
        show 0 ≤ Cert.ReferenceIdeal.scatter_S256x64_S50000x1_S50000x64_1_0_0_1.start (ix2 r q) ids 1 + Cert.ReferenceIdeal.scatter_S256x64_S50000x1_S50000x64_1_0_0_1.window (ix2 r q) 1
          ∧ Cert.ReferenceIdeal.scatter_S256x64_S50000x1_S50000x64_1_0_0_1.start (ix2 r q) ids 1 + Cert.ReferenceIdeal.scatter_S256x64_S50000x1_S50000x64_1_0_0_1.window (ix2 r q) 1 < ((64 : ℕ) : ℤ)
        rw [start_pool_1, window_pool_1]; omega

abbrev contrib (h : (⟨2, ![50000, 64]⟩ : Shape).Idx → EReal) (ids : (⟨2, ![50000, 1]⟩ : Shape).Idx → BitVec 32)
    (g : Fin 256) (q : Fin 64) (r : Fin 50000) : EReal :=
  if ids (ix2 r (0 : Fin 1)) = BitVec.ofNat 32 g.val then h (ix2 r q) else 0

def contribN (h : (⟨2, ![50000, 64]⟩ : Shape).Idx → EReal) (ids : (⟨2, ![50000, 1]⟩ : Shape).Idx → BitVec 32)
    (g : Fin 256) (q : Fin 64) (r : ℕ) : EReal :=
  if hr : r < 50000 then contrib h ids g q ⟨r, hr⟩ else 0

def blockSum (h : (⟨2, ![50000, 64]⟩ : Shape).Idx → EReal) (ids : (⟨2, ![50000, 1]⟩ : Shape).Idx → BitVec 32)
    (g : Fin 256) (q : Fin 64) (t : ℕ) : EReal :=
  ∑ k : Fin 5000, contribN h ids g q (5000 * t + k.val)

theorem sum_blocks (h : (⟨2, ![50000, 64]⟩ : Shape).Idx → EReal) (ids : (⟨2, ![50000, 1]⟩ : Shape).Idx → BitVec 32)
    (g : Fin 256) (q : Fin 64) :
    ∑ t ∈ Finset.range 10, blockSum h ids g q t = ∑ r : Fin 50000, contrib h ids g q r :=
  calc ∑ t ∈ Finset.range 10, blockSum h ids g q t
      = ∑ t : Fin 10, blockSum h ids g q t.val := Finset.sum_range _
    _ = ∑ t : Fin 10, ∑ k : Fin 5000, contrib h ids g q (finProdFinEquiv (t, k)) := by
        refine Finset.sum_congr rfl fun t _ => ?_
        unfold blockSum
        refine Finset.sum_congr rfl fun k _ => ?_
        have ht := t.isLt
        have hk := k.isLt
        unfold contribN
        rw [dif_pos (show 5000 * t.val + k.val < 50000 by omega)]
        exact congrArg (contrib h ids g q) (Fin.ext (by
          show 5000 * t.val + k.val = k.val + 5000 * t.val
          omega))
    _ = ∑ x : Fin 10 × Fin 5000, contrib h ids g q (finProdFinEquiv x) := (Fintype.sum_prod_type (fun x : Fin 10 × Fin 5000 => contrib h ids g q (finProdFinEquiv x))).symm
    _ = ∑ r : Fin 50000, contrib h ids g q r :=
        Equiv.sum_comp (finProdFinEquiv (m := 10) (n := 5000)) (contrib h ids g q : Fin (10 * 5000) → EReal)

theorem toInt_eq_iff (x : BitVec 32) (g : Fin 256) : x.toInt = (g.val : ℤ) ↔ x = BitVec.ofNat 32 g.val := by
  have hg := g.isLt
  have h := StableHlo.Predicate.toInt_ofNat_small g.val (by omega)
  constructor
  · intro e; exact BitVec.eq_of_toInt_eq (e.trans h.symm)
  · rintro rfl; exact h

theorem poolRows_apply (h : FVec Ideal Cert.ReferenceIdeal.S50000x64 .f32) (ids : IVec Cert.ReferenceIdeal.S50000x1 32)
    (g : Fin 256) (q : Fin 64) :
    poolRows h ids (ix2 g q) = ∑ r : Fin 50000, contrib h ids g q r := by
  unfold poolRows
  show Ideal.hostScatterAdd Cert.ReferenceIdeal.scatter_S256x64_S50000x1_S50000x64_1_0_0_1 _ ids h (ix2 g q) = _
  unfold Ideal.hostScatterAdd
  rw [broadcastInDim_constant, broadcast_apply]
  show Ideal.ofBits .f32 0x00000000#32 + _ = _
  rw [Ideal.ofBits_zero_f32, zero_add, Finset.sum_filter]
  refine (sum_idx2 _).trans (Finset.sum_congr rfl fun r _ => ?_)
  simp only [resultIdx_pool, toInt_eq_iff]
  by_cases hr : ids (ix2 r (0 : Fin 1)) = BitVec.ofNat 32 g.val
  · simp [hr]
  · simp [hr]

theorem pay1_apply (i : S256x64.Idx) : k3_pay1 (F := Ideal) i = 0 := by
  unfold k3_pay1
  simp only [shapeCast_self]
  rw [broadcast_apply]
  exact Ideal.ofBits_zero_f32

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

theorem iblk3_0_apply (V : (c : Dev nD) → (b : Ref sig .tc) → Buf (Elt Ideal) ((c : Thread nD τ).loc b)) (c : Dev nD)
    (t : Fin cfg3.N) (k : Fin 5000) (q : Fin 64) (hr : 5000 * t.val + k.val < 50000) :
    iblk3 (F := Ideal) V c 0 t (ix2 k q) = V c (Pipeline.arrRef spec3 0) (ix2 ⟨5000 * t.val + k.val, hr⟩ q) := by
  obtain ⟨e0, e1, -⟩ := idx_facts3 t
  show V c (Pipeline.arrRef spec3 0) (((cfg3.win 0).blk t).view.emb (ix2 k q)) = _
  refine congrArg (V c (Pipeline.arrRef spec3 0)) (funext fun a => Fin.ext ?_)
  match a with
  | ⟨0, _⟩ => show win3_0.index t (0 : Fin 2) * 5000 + 1 * k.val = 5000 * t.val + k.val; omega
  | ⟨1, _⟩ => show win3_0.index t (1 : Fin 2) * 64 + 1 * q.val = q.val; omega

theorem iblk3_1_apply (V : (c : Dev nD) → (b : Ref sig .tc) → Buf (Elt Ideal) ((c : Thread nD τ).loc b)) (c : Dev nD)
    (t : Fin cfg3.N) (k : Fin 5000) (hr : 5000 * t.val + k.val < 50000) :
    iblk3 (F := Ideal) V c 1 t (ix2 k (0 : Fin 1))
      = V c (Pipeline.arrRef spec3 1) (ix2 ⟨5000 * t.val + k.val, hr⟩ (0 : Fin 1)) := by
  obtain ⟨-, -, e0, e1, -⟩ := idx_facts3 t
  show V c (Pipeline.arrRef spec3 1) (((cfg3.win 1).blk t).view.emb (ix2 k (0 : Fin 1))) = _
  refine congrArg (V c (Pipeline.arrRef spec3 1)) (funext fun a => Fin.ext ?_)
  match a with
  | ⟨0, _⟩ => show win3_1.index t (0 : Fin 2) * 5000 + 1 * k.val = 5000 * t.val + k.val; omega
  | ⟨1, _⟩ => show win3_1.index t (1 : Fin 2) * 1 + 1 * 0 = 0; omega

theorem block_eq (V : (c : Dev nD) → (b : Ref sig .tc) → Buf (Elt Ideal) ((c : Thread nD τ).loc b)) (c : Dev nD)
    (t : Fin cfg3.N) (g : Fin 256) (q : Fin 64) :
    ((∑ k : Fin 5000, (if (iblk3 (F := Ideal) V c 1 t (ix2 k (0 : Fin 1)) : BitVec 32) = BitVec.ofNat 32 g.val
        then (iblk3 (F := Ideal) V c 0 t (ix2 k q) : EReal) else 0)) : EReal)
      = blockSum (V c (Pipeline.arrRef spec3 0)) (V c (Pipeline.arrRef spec3 1)) g q t.val := by
  have hN : cfg3.N = 10 := N_3
  have ht := t.isLt
  unfold blockSum
  refine Finset.sum_congr rfl fun k _ => ?_
  have hk := k.isLt
  have hr : 5000 * t.val + k.val < 50000 := by omega
  unfold contribN
  rw [dif_pos hr, iblk3_0_apply V c t k q hr, iblk3_1_apply V c t k hr]

theorem acc3_step (V : (c : Dev nD) → (b : Ref sig .tc) → Buf (Elt Ideal) ((c : Thread nD τ).loc b)) (c : Dev nD)
    (t : Fin cfg3.N) (a : Vec Ideal S256x64 .f32) (g : Fin 256) (q : Fin 64) :
    k3_pay2 (F := Ideal) (iblk3 V c 1 t) (iblk3 V c 0 t) a (ix2 g q)
      = a (ix2 g q) + blockSum (V c (Pipeline.arrRef spec3 0)) (V c (Pipeline.arrRef spec3 1)) g q t.val := by
  rw [pay2_apply]
  exact congrArg (a (ix2 g q) + ·) (block_eq V c t g q)

theorem acc3_apply (V : (c : Dev nD) → (b : Ref sig .tc) → Buf (Elt Ideal) ((c : Thread nD τ).loc b)) (c : Dev nD)
    (g : Fin 256) (q : Fin 64) : ∀ (n : ℕ) (hn : n < cfg3.N),
    acc3 (F := Ideal) V c n hn (ix2 g q)
      = ∑ t ∈ Finset.range (n + 1), blockSum (V c (Pipeline.arrRef spec3 0)) (V c (Pipeline.arrRef spec3 1)) g q t
  | 0, hn => by
    rw [acc3_zero, acc3_step V c ⟨0, hn⟩, pay1_apply, zero_add, Finset.sum_range_one]
  | n + 1, hn => by
    rw [Finset.sum_range_succ _ (n + 1), acc3_succ, acc3_step V c ⟨n + 1, hn⟩,
      acc3_apply V c g q n (Nat.lt_of_succ_lt hn)]

theorem acc3_last (V : (c : Dev nD) → (b : Ref sig .tc) → Buf (Elt Ideal) ((c : Thread nD τ).loc b)) (c : Dev nD)
    (g : Fin 256) (q : Fin 64) (n : ℕ) (hn : n < cfg3.N) (h9 : n = 9) :
    acc3 (F := Ideal) V c n hn (ix2 g q)
      = poolRows (V c (Pipeline.arrRef spec3 0)) (V c (Pipeline.arrRef spec3 1)) (ix2 g q) := by
  subst h9
  exact (acc3_apply V c g q 9 hn).trans ((sum_blocks _ _ g q).trans (poolRows_apply _ _ g q).symm)

theorem flushed3_eq (V : (c : Dev nD) → (b : Ref sig .tc) → Buf (Elt Ideal) ((c : Thread nD τ).loc b)) (c : Dev nD)
    (t : Fin cfg3.N) (hf : (cfg3.win 2).flush t = true) :
    (dat3 (F := Ideal) V c).flushed 2 t
      = ((cfg3.win 2).blk t).view.read (Elt Ideal)
          (poolRows (V c (Pipeline.arrRef spec3 0)) (V c (Pipeline.arrRef spec3 1))) := by
  have hN : cfg3.N = 10 := N_3
  have h9 : t.val = 9 := by have := (flush3_2 t).mp hf; have := t.isLt; omega
  obtain ⟨-, -, -, -, e0, e1⟩ := idx_facts3 t
  show (cfg3.win 2).cut (grid3.coords t) ((dat3 (F := Ideal) V c).after 2 t) = _
  rw [after3_2]
  funext j
  obtain ⟨g, q, rfl⟩ : ∃ (g : Fin 256) (q : Fin 64), j = ix2 g q := ⟨j 0, j 1, eq_ix2 (n0 := 256) (n1 := 64) j⟩
  show acc3 (F := Ideal) V c t.val t.isLt (ix2 g q)
    = poolRows (V c (Pipeline.arrRef spec3 0)) (V c (Pipeline.arrRef spec3 1)) (((cfg3.win 2).blk t).view.emb (ix2 g q))
  have hemb : ((cfg3.win 2).blk t).view.emb (ix2 g q) = ix2 g q := funext fun a => Fin.ext (by
    match a with
    | ⟨0, _⟩ => show win3_2.index t (0 : Fin 2) * 256 + 1 * g.val = g.val; omega
    | ⟨1, _⟩ => show win3_2.index t (1 : Fin 2) * 64 + 1 * q.val = q.val; omega)
  rw [hemb]
  exact acc3_last V c g q t.val t.isLt h9

theorem mem_blk3 (t : Fin cfg3.N) (i : S256x64.Idx) :
    i ∈ ((cfg3.win 2).blk t).view.set
      ↔ ∀ a : Fin 2, win3_2.index t a * S256x64.size a ≤ (i a).val ∧ (i a).val < win3_2.index t a * S256x64.size a + S256x64.size a := by
  show i ∈ ((View.whole main_v54).slice (win3_2.rect t)).set ↔ _
  rw [View.set_slice_whole, Rect.mem_set_unit]
  exact Iff.rfl

theorem final3 (V : (c : Dev nD) → (b : Ref sig .tc) → Buf (Elt Ideal) ((c : Thread nD τ).loc b)) (c : Dev nD) :
    (dat3 (F := Ideal) V c).arrAt 2 cfg3.N
      = poolRows (V c (Pipeline.arrRef spec3 0)) (V c (Pipeline.arrRef spec3 1)) :=
  (dat3 (F := Ideal) V c).arrAt_eq_of_cover 2 _ (flushed3_eq V c) fun i => by
    have hN : cfg3.N = 10 := N_3
    have h9 : 9 < cfg3.N := by omega
    obtain ⟨-, -, -, -, e0, e1⟩ := idx_facts3 ⟨9, h9⟩
    refine ⟨⟨9, h9⟩, (flush3_2 _).mpr rfl, ?_⟩
    rw [mem_blk3]
    have h0 : (i 0 : ℕ) < 256 := (i 0).isLt
    have h1 : (i 1 : ℕ) < 64 := (i 1).isLt
    intro a
    match a with
    | ⟨0, _⟩ =>
      show win3_2.index ⟨9, h9⟩ (0 : Fin 2) * 256 ≤ (i 0).val ∧ (i 0).val < win3_2.index ⟨9, h9⟩ (0 : Fin 2) * 256 + 256
      omega
    | ⟨1, _⟩ =>
      show win3_2.index ⟨9, h9⟩ (1 : Fin 2) * 64 ≤ (i 1).val ∧ (i 1).val < win3_2.index ⟨9, h9⟩ (1 : Fin 2) * 64 + 64
      omega

end Cert.KernelIdeal.Gen

end
-- ==== Proof.KI.MlpValue.lean ====
/- The value of the perceptron region: every window's one block is its whole array and the one store covers the output, so the
   output array after the single point is the payload chain of the fifteen arrays the region reads. -/
import proofs.«409739_j33028298506661_1_alg».proof.Proof.KI.Mlp
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4Value

variable (V : (c : Dev nD) → (b : Ref sig .tc) → Buf (Elt F) ((c : Thread nD τ).loc b))

theorem zero_off4 : (![0, 0] : Fin 2 → Nat) = fun _ => 0 := funext fun a => by fin_cases a <;> rfl

theorem idx4_0 : ∀ t : Fin cfg4.N, win4_0.index t (0 : Fin 2) = 0 ∧ win4_0.index t (1 : Fin 2) = 0 :=
  (by decide +kernel : ∀ t : Fin grid4.N, _)
theorem idx4_1 : ∀ t : Fin cfg4.N, win4_1.index t (0 : Fin 2) = 0 ∧ win4_1.index t (1 : Fin 2) = 0 :=
  (by decide +kernel : ∀ t : Fin grid4.N, _)
theorem idx4_2 : ∀ t : Fin cfg4.N, win4_2.index t (0 : Fin 2) = 0 ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = 0 ∧ win4_5.index t (1 : Fin 2) = 0 :=
  (by decide +kernel : ∀ t : Fin grid4.N, _)
theorem idx4_6 : ∀ t : Fin cfg4.N, win4_6.index t (0 : Fin 2) = 0 ∧ win4_6.index t (1 : Fin 2) = 0 :=
  (by decide +kernel : ∀ t : Fin grid4.N, _)
theorem idx4_7 : ∀ t : Fin cfg4.N, win4_7.index t (0 : Fin 2) = 0 ∧ win4_7.index t (1 : Fin 2) = 0 :=
  (by decide +kernel : ∀ t : Fin grid4.N, _)
theorem idx4_8 : ∀ t : Fin cfg4.N, win4_8.index t (0 : Fin 2) = 0 ∧ win4_8.index t (1 : Fin 2) = 0 :=
  (by decide +kernel : ∀ t : Fin grid4.N, _)
theorem idx4_9 : ∀ t : Fin cfg4.N, win4_9.index t (0 : Fin 2) = 0 ∧ win4_9.index t (1 : Fin 2) = 0 :=
  (by decide +kernel : ∀ t : Fin grid4.N, _)
theorem idx4_10 : ∀ t : Fin cfg4.N, win4_10.index t (0 : Fin 2) = 0 ∧ win4_10.index t (1 : Fin 2) = 0 :=
  (by decide +kernel : ∀ t : Fin grid4.N, _)
theorem idx4_11 : ∀ t : Fin cfg4.N, win4_11.index t (0 : Fin 2) = 0 ∧ win4_11.index t (1 : Fin 2) = 0 :=
  (by decide +kernel : ∀ t : Fin grid4.N, _)
theorem idx4_12 : ∀ t : Fin cfg4.N, win4_12.index t (0 : Fin 2) = 0 ∧ win4_12.index t (1 : Fin 2) = 0 :=
  (by decide +kernel : ∀ t : Fin grid4.N, _)
theorem idx4_13 : ∀ t : Fin cfg4.N, win4_13.index t (0 : Fin 2) = 0 ∧ win4_13.index t (1 : Fin 2) = 0 :=
  (by decide +kernel : ∀ t : Fin grid4.N, _)
theorem idx4_14 : ∀ t : Fin cfg4.N, win4_14.index t (0 : Fin 2) = 0 ∧ win4_14.index t (1 : Fin 2) = 0 :=
  (by decide +kernel : ∀ t : Fin grid4.N, _)
theorem idx4_15 : ∀ t : Fin cfg4.N, win4_15.index t (0 : Fin 2) = 0 ∧ win4_15.index t (1 : Fin 2) = 0 :=
  (by decide +kernel : ∀ t : Fin grid4.N, _)

theorem iblk4_0_eq (c : Dev nD) (t : Fin cfg4.N) : (iblk4 V c 0 t : Vec F S256x64 .f32) = V c (Pipeline.arrRef spec4 0) := by
  obtain ⟨e0, e1⟩ := idx4_0 t
  funext j
  show V c (Pipeline.arrRef spec4 0) (((cfg4.win 0).blk t).view.emb j) = V c (Pipeline.arrRef spec4 0) j
  refine congrArg _ (funext fun a => Fin.ext ?_)
  match a with
  | ⟨0, _⟩ => show win4_0.index t (0 : Fin 2) * 256 + 1 * (j 0).val = (j 0).val; omega
  | ⟨1, _⟩ => show win4_0.index t (1 : Fin 2) * 64 + 1 * (j 1).val = (j 1).val; omega
theorem iblk4_1_eq (c : Dev nD) (t : Fin cfg4.N) : (iblk4 V c 1 t : Vec F S64x256 .f32) = V c (Pipeline.arrRef spec4 1) := by
  obtain ⟨e0, e1⟩ := idx4_1 t
  funext j
  show V c (Pipeline.arrRef spec4 1) (((cfg4.win 1).blk t).view.emb j) = V c (Pipeline.arrRef spec4 1) j
  refine congrArg _ (funext fun a => Fin.ext ?_)
  match a with
  | ⟨0, _⟩ => show win4_1.index t (0 : Fin 2) * 64 + 1 * (j 0).val = (j 0).val; omega
  | ⟨1, _⟩ => show win4_1.index t (1 : Fin 2) * 256 + 1 * (j 1).val = (j 1).val; omega
theorem iblk4_2_eq (c : Dev nD) (t : Fin cfg4.N) : (iblk4 V c 2 t : Vec F S1x256 .f32) = V c (Pipeline.arrRef spec4 2) := by
  obtain ⟨e0, e1⟩ := idx4_2 t
  funext j
  show V c (Pipeline.arrRef spec4 2) (((cfg4.win 2).blk t).view.emb j) = V c (Pipeline.arrRef spec4 2) j
  refine congrArg _ (funext fun a => Fin.ext ?_)
  match a with
  | ⟨0, _⟩ => show win4_2.index t (0 : Fin 2) * 1 + 1 * (j 0).val = (j 0).val; omega
  | ⟨1, _⟩ => show win4_2.index t (1 : Fin 2) * 256 + 1 * (j 1).val = (j 1).val; omega
theorem iblk4_3_eq (c : Dev nD) (t : Fin cfg4.N) : (iblk4 V c 3 t : Vec F S1x256 .f32) = V c (Pipeline.arrRef spec4 3) := by
  obtain ⟨e0, e1⟩ := idx4_3 t
  funext j
  show V c (Pipeline.arrRef spec4 3) (((cfg4.win 3).blk t).view.emb j) = V c (Pipeline.arrRef spec4 3) j
  refine congrArg _ (funext fun a => Fin.ext ?_)
  match a with
  | ⟨0, _⟩ => show win4_3.index t (0 : Fin 2) * 1 + 1 * (j 0).val = (j 0).val; omega
  | ⟨1, _⟩ => show win4_3.index t (1 : Fin 2) * 256 + 1 * (j 1).val = (j 1).val; omega
theorem iblk4_4_eq (c : Dev nD) (t : Fin cfg4.N) : (iblk4 V c 4 t : Vec F S1x256 .f32) = V c (Pipeline.arrRef spec4 4) := by
  obtain ⟨e0, e1⟩ := idx4_4 t
  funext j
  show V c (Pipeline.arrRef spec4 4) (((cfg4.win 4).blk t).view.emb j) = V c (Pipeline.arrRef spec4 4) j
  refine congrArg _ (funext fun a => Fin.ext ?_)
  match a with
  | ⟨0, _⟩ => show win4_4.index t (0 : Fin 2) * 1 + 1 * (j 0).val = (j 0).val; omega
  | ⟨1, _⟩ => show win4_4.index t (1 : Fin 2) * 256 + 1 * (j 1).val = (j 1).val; omega
theorem iblk4_5_eq (c : Dev nD) (t : Fin cfg4.N) : (iblk4 V c 5 t : Vec F S256x128 .f32) = V c (Pipeline.arrRef spec4 5) := by
  obtain ⟨e0, e1⟩ := idx4_5 t
  funext j
  show V c (Pipeline.arrRef spec4 5) (((cfg4.win 5).blk t).view.emb j) = V c (Pipeline.arrRef spec4 5) j
  refine congrArg _ (funext fun a => Fin.ext ?_)
  match a with
  | ⟨0, _⟩ => show win4_5.index t (0 : Fin 2) * 256 + 1 * (j 0).val = (j 0).val; omega
  | ⟨1, _⟩ => show win4_5.index t (1 : Fin 2) * 128 + 1 * (j 1).val = (j 1).val; omega
theorem iblk4_6_eq (c : Dev nD) (t : Fin cfg4.N) : (iblk4 V c 6 t : Vec F S1x128 .f32) = V c (Pipeline.arrRef spec4 6) := by
  obtain ⟨e0, e1⟩ := idx4_6 t
  funext j
  show V c (Pipeline.arrRef spec4 6) (((cfg4.win 6).blk t).view.emb j) = V c (Pipeline.arrRef spec4 6) j
  refine congrArg _ (funext fun a => Fin.ext ?_)
  match a with
  | ⟨0, _⟩ => show win4_6.index t (0 : Fin 2) * 1 + 1 * (j 0).val = (j 0).val; omega
  | ⟨1, _⟩ => show win4_6.index t (1 : Fin 2) * 128 + 1 * (j 1).val = (j 1).val; omega
theorem iblk4_7_eq (c : Dev nD) (t : Fin cfg4.N) : (iblk4 V c 7 t : Vec F S1x128 .f32) = V c (Pipeline.arrRef spec4 7) := by
  obtain ⟨e0, e1⟩ := idx4_7 t
  funext j
  show V c (Pipeline.arrRef spec4 7) (((cfg4.win 7).blk t).view.emb j) = V c (Pipeline.arrRef spec4 7) j
  refine congrArg _ (funext fun a => Fin.ext ?_)
  match a with
  | ⟨0, _⟩ => show win4_7.index t (0 : Fin 2) * 1 + 1 * (j 0).val = (j 0).val; omega
  | ⟨1, _⟩ => show win4_7.index t (1 : Fin 2) * 128 + 1 * (j 1).val = (j 1).val; omega
theorem iblk4_8_eq (c : Dev nD) (t : Fin cfg4.N) : (iblk4 V c 8 t : Vec F S1x128 .f32) = V c (Pipeline.arrRef spec4 8) := by
  obtain ⟨e0, e1⟩ := idx4_8 t
  funext j
  show V c (Pipeline.arrRef spec4 8) (((cfg4.win 8).blk t).view.emb j) = V c (Pipeline.arrRef spec4 8) j
  refine congrArg _ (funext fun a => Fin.ext ?_)
  match a with
  | ⟨0, _⟩ => show win4_8.index t (0 : Fin 2) * 1 + 1 * (j 0).val = (j 0).val; omega
  | ⟨1, _⟩ => show win4_8.index t (1 : Fin 2) * 128 + 1 * (j 1).val = (j 1).val; omega
theorem iblk4_9_eq (c : Dev nD) (t : Fin cfg4.N) : (iblk4 V c 9 t : Vec F S128x64 .f32) = V c (Pipeline.arrRef spec4 9) := by
  obtain ⟨e0, e1⟩ := idx4_9 t
  funext j
  show V c (Pipeline.arrRef spec4 9) (((cfg4.win 9).blk t).view.emb j) = V c (Pipeline.arrRef spec4 9) j
  refine congrArg _ (funext fun a => Fin.ext ?_)
  match a with
  | ⟨0, _⟩ => show win4_9.index t (0 : Fin 2) * 128 + 1 * (j 0).val = (j 0).val; omega
  | ⟨1, _⟩ => show win4_9.index t (1 : Fin 2) * 64 + 1 * (j 1).val = (j 1).val; omega
theorem iblk4_10_eq (c : Dev nD) (t : Fin cfg4.N) : (iblk4 V c 10 t : Vec F S1x64 .f32) = V c (Pipeline.arrRef spec4 10) := by
  obtain ⟨e0, e1⟩ := idx4_10 t
  funext j
  show V c (Pipeline.arrRef spec4 10) (((cfg4.win 10).blk t).view.emb j) = V c (Pipeline.arrRef spec4 10) j
  refine congrArg _ (funext fun a => Fin.ext ?_)
  match a with
  | ⟨0, _⟩ => show win4_10.index t (0 : Fin 2) * 1 + 1 * (j 0).val = (j 0).val; omega
  | ⟨1, _⟩ => show win4_10.index t (1 : Fin 2) * 64 + 1 * (j 1).val = (j 1).val; omega
theorem iblk4_11_eq (c : Dev nD) (t : Fin cfg4.N) : (iblk4 V c 11 t : Vec F S1x64 .f32) = V c (Pipeline.arrRef spec4 11) := by
  obtain ⟨e0, e1⟩ := idx4_11 t
  funext j
  show V c (Pipeline.arrRef spec4 11) (((cfg4.win 11).blk t).view.emb j) = V c (Pipeline.arrRef spec4 11) j
  refine congrArg _ (funext fun a => Fin.ext ?_)
  match a with
  | ⟨0, _⟩ => show win4_11.index t (0 : Fin 2) * 1 + 1 * (j 0).val = (j 0).val; omega
  | ⟨1, _⟩ => show win4_11.index t (1 : Fin 2) * 64 + 1 * (j 1).val = (j 1).val; omega
theorem iblk4_12_eq (c : Dev nD) (t : Fin cfg4.N) : (iblk4 V c 12 t : Vec F S1x64 .f32) = V c (Pipeline.arrRef spec4 12) := by
  obtain ⟨e0, e1⟩ := idx4_12 t
  funext j
  show V c (Pipeline.arrRef spec4 12) (((cfg4.win 12).blk t).view.emb j) = V c (Pipeline.arrRef spec4 12) j
  refine congrArg _ (funext fun a => Fin.ext ?_)
  match a with
  | ⟨0, _⟩ => show win4_12.index t (0 : Fin 2) * 1 + 1 * (j 0).val = (j 0).val; omega
  | ⟨1, _⟩ => show win4_12.index t (1 : Fin 2) * 64 + 1 * (j 1).val = (j 1).val; omega
theorem iblk4_13_eq (c : Dev nD) (t : Fin cfg4.N) : (iblk4 V c 13 t : Vec F S64x10 .f32) = V c (Pipeline.arrRef spec4 13) := by
  obtain ⟨e0, e1⟩ := idx4_13 t
  funext j
  show V c (Pipeline.arrRef spec4 13) (((cfg4.win 13).blk t).view.emb j) = V c (Pipeline.arrRef spec4 13) j
  refine congrArg _ (funext fun a => Fin.ext ?_)
  match a with
  | ⟨0, _⟩ => show win4_13.index t (0 : Fin 2) * 64 + 1 * (j 0).val = (j 0).val; omega
  | ⟨1, _⟩ => show win4_13.index t (1 : Fin 2) * 10 + 1 * (j 1).val = (j 1).val; omega
theorem iblk4_14_eq (c : Dev nD) (t : Fin cfg4.N) : (iblk4 V c 14 t : Vec F S1x10 .f32) = V c (Pipeline.arrRef spec4 14) := by
  obtain ⟨e0, e1⟩ := idx4_14 t
  funext j
  show V c (Pipeline.arrRef spec4 14) (((cfg4.win 14).blk t).view.emb j) = V c (Pipeline.arrRef spec4 14) j
  refine congrArg _ (funext fun a => Fin.ext ?_)
  match a with
  | ⟨0, _⟩ => show win4_14.index t (0 : Fin 2) * 1 + 1 * (j 0).val = (j 0).val; omega
  | ⟨1, _⟩ => show win4_14.index t (1 : Fin 2) * 10 + 1 * (j 1).val = (j 1).val; omega

abbrev mlp4 (c : Dev nD) : Vec F S256x10 .f32 :=
  k4_pay1 (k4_pay4 (k4_pay2 (V c (Pipeline.arrRef spec4 0)) (V c (Pipeline.arrRef spec4 1)) (V c (Pipeline.arrRef spec4 2)) (V c (Pipeline.arrRef spec4 3)) (V c (Pipeline.arrRef spec4 4)))
      (k4_pay3 (V c (Pipeline.arrRef spec4 5))) (constant S256x128 .f32 0x00000000#32) (V c (Pipeline.arrRef spec4 6)) (V c (Pipeline.arrRef spec4 7))
      (V c (Pipeline.arrRef spec4 8)) (V c (Pipeline.arrRef spec4 9)) (V c (Pipeline.arrRef spec4 10)))
    (k4_pay5 (V c (Pipeline.arrRef spec4 11))) (V c (Pipeline.arrRef spec4 12)) (V c (Pipeline.arrRef spec4 13)) (V c (Pipeline.arrRef spec4 14))

set_option maxHeartbeats 4000000 in
theorem flushed4_15_eq (c : Dev nD) (t : Fin cfg4.N) :
    (dat4 V c).flushed 15 t = ((cfg4.win 15).blk t).view.read (Elt F) (mlp4 V c) := by
  show (cfg4.win 15).cut (grid4.coords t) ((dat4 V c).after 15 t) = _
  rw [after4_15]
  unfold out4_15
  rw [View.canon_unit_zero zero_off4]
  simp only [View.ld_unit_zero (S := S256x64) zero_off4, View.ld_unit_zero (S := S64x256) zero_off4,
    View.ld_unit_zero (S := S1x256) zero_off4, View.ld_unit_zero (S := S256x128) zero_off4,
    View.ld_unit_zero (S := S1x128) zero_off4, View.ld_unit_zero (S := S128x64) zero_off4,
    View.ld_unit_zero (S := S1x64) zero_off4, View.ld_unit_zero (S := S64x10) zero_off4,
    View.ld_unit_zero (S := S1x10) zero_off4]
  rw [iblk4_0_eq, iblk4_1_eq, iblk4_2_eq, iblk4_3_eq, iblk4_4_eq, iblk4_5_eq, iblk4_6_eq, iblk4_7_eq, iblk4_8_eq, iblk4_9_eq,
    iblk4_10_eq, iblk4_11_eq, iblk4_12_eq, iblk4_13_eq, iblk4_14_eq]
  obtain ⟨e0, e1⟩ := idx4_15 t
  funext j
  show mlp4 V c j = mlp4 V c (((cfg4.win 15).blk t).view.emb j)
  refine congrArg _ (funext fun a => Fin.ext ?_)
  match a with
  | ⟨0, _⟩ => show (j 0).val = win4_15.index t (0 : Fin 2) * 256 + 1 * (j 0).val; omega
  | ⟨1, _⟩ => show (j 1).val = win4_15.index t (1 : Fin 2) * 10 + 1 * (j 1).val; omega

theorem mem_blk4_15 (t : Fin cfg4.N) (i : S256x10.Idx) :
    i ∈ ((cfg4.win 15).blk t).view.set ↔ ∀ a : Fin 2, win4_15.index t a * S256x10.size a ≤ (i a).val ∧ (i a).val < win4_15.index t a * S256x10.size a + S256x10.size a := by
  show i ∈ ((View.whole main_v74).slice (win4_15.rect t)).set ↔ _
  rw [View.set_slice_whole, Rect.mem_set_unit]
  exact Iff.rfl

theorem cover4_arr (i : S256x10.Idx) :
    ∃ t : Fin cfg4.N, (cfg4.win 15).flush t = true ∧ i ∈ ((cfg4.win 15).blk t).view.set := by
  refine ⟨t4_0, flush4_15 t4_0, ?_⟩
  rw [mem_blk4_15]
  obtain ⟨e0, e1⟩ := idx4_15 t4_0
  have hi0 : (i 0).val < 256 := (i 0).isLt
  have hi1 : (i 1).val < 10 := (i 1).isLt
  intro a
  match a with
  | ⟨0, _⟩ => show win4_15.index t4_0 (0 : Fin 2) * 256 ≤ (i 0).val ∧ (i 0).val < win4_15.index t4_0 (0 : Fin 2) * 256 + 256; omega
  | ⟨1, _⟩ => show win4_15.index t4_0 (1 : Fin 2) * 10 ≤ (i 1).val ∧ (i 1).val < win4_15.index t4_0 (1 : Fin 2) * 10 + 10; omega

theorem final4 (c : Dev nD) :
    (dat4 V c).arrAt 15 cfg4.N = k4_pay1 (k4_pay4 (k4_pay2 (V c (Pipeline.arrRef spec4 0)) (V c (Pipeline.arrRef spec4 1)) (V c (Pipeline.arrRef spec4 2)) (V c (Pipeline.arrRef spec4 3)) (V c (Pipeline.arrRef spec4 4)))
        (k4_pay3 (V c (Pipeline.arrRef spec4 5))) (constant S256x128 .f32 0x00000000#32) (V c (Pipeline.arrRef spec4 6)) (V c (Pipeline.arrRef spec4 7))
        (V c (Pipeline.arrRef spec4 8)) (V c (Pipeline.arrRef spec4 9)) (V c (Pipeline.arrRef spec4 10)))
      (k4_pay5 (V c (Pipeline.arrRef spec4 11))) (V c (Pipeline.arrRef spec4 12)) (V c (Pipeline.arrRef spec4 13)) (V c (Pipeline.arrRef spec4 14)) :=
  (dat4 V c).arrAt_eq_of_cover 15 (mlp4 V c) (fun t _ => flushed4_15_eq V c t) (fun i => cover4_arr i)

end Region4Value

end Cert.KernelIdeal.Gen

end
-- ==== Proof.KI.Chain.lean ====
/- The kernel program's result as a function of its launch arguments: the contents at each boundary of @main read back through
   the fold, a stretch's results by its composed term, a region's output array by the region's value, every other buffer carried over. -/
import proofs.«409739_j33028298506661_1_alg».proof.Proof.KI.Run
import proofs.«409739_j33028298506661_1_alg».proof.Proof.KI.KVal
import proofs.«409739_j33028298506661_1_alg».proof.Proof.KI.SageValue0
import proofs.«409739_j33028298506661_1_alg».proof.Proof.KI.SageValue1
import proofs.«409739_j33028298506661_1_alg».proof.Proof.KI.SageValue2
import proofs.«409739_j33028298506661_1_alg».proof.Proof.KI.PoolValue
import proofs.«409739_j33028298506661_1_alg».proof.Proof.KI.MlpValue

set_option maxRecDepth 16384

noncomputable section

namespace Cert.KernelIdeal.Gen

open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

theorem s1_v1 : W1 m ρ c (Proc.devRef .tc main_v1) = kSrc (W0 m ρ c) := ops0_v1 (W0 m ρ c)
theorem s1_v3 : W1 m ρ c (Proc.devRef .tc main_v3) = kDst (W0 m ρ c) := ops0_v3 (W0 m ρ c)
theorem s1_v10 : W1 m ρ c (Proc.devRef .tc main_v10) = kDeg (W0 m ρ c) := ops0_v10 (W0 m ρ c)
theorem s1_v22 : W1 m ρ c (Proc.devRef .tc main_v22) = meanAgg128 (arg (W0 m ρ c) main_arg0) (kSrc (W0 m ρ c)) (kDst (W0 m ρ c)) (kDeg (W0 m ρ c)) := ops0_v22 (W0 m ρ c)
theorem s1_v23 : W1 m ρ c (Proc.devRef .tc main_v23) = shapeCast S1x64 (arg (W0 m ρ c) main_arg4) shapeCasts_S64_S1x64 := ops0_v23 (W0 m ρ c)

theorem s2_v24 : W2 m ρ c (Proc.devRef .tc main_v24) = kH1 (W0 m ρ c) := by
  refine (exitW_arr _ _ c launch0.win.arr_inj 5).trans ((final0 (E1 m ρ) c).trans ?_)
  show sageRows0 (W1 m ρ c (Proc.devRef .tc main_v22)) (W1 m ρ c (Proc.devRef .tc main_arg0)) (W1 m ρ c (Proc.devRef .tc main_arg3)) (W1 m ρ c (Proc.devRef .tc main_v23)) (W1 m ρ c (Proc.devRef .tc main_arg5)) = _
  rw [s1_v22, s1_v23, q1 m ρ c main_arg0 (by decide), q1 m ρ c main_arg3 (by decide), q1 m ρ c main_arg5 (by decide)]
  rfl

theorem s2_v1 : W2 m ρ c (Proc.devRef .tc main_v1) = kSrc (W0 m ρ c) := (keep2 m ρ c main_v1 (by decide)).trans (s1_v1 m ρ c)
theorem s2_v3 : W2 m ρ c (Proc.devRef .tc main_v3) = kDst (W0 m ρ c) := (keep2 m ρ c main_v3 (by decide)).trans (s1_v3 m ρ c)
theorem s2_v10 : W2 m ρ c (Proc.devRef .tc main_v10) = kDeg (W0 m ρ c) := (keep2 m ρ c main_v10 (by decide)).trans (s1_v10 m ρ c)
theorem s4_v1 : W4 m ρ c (Proc.devRef .tc main_v1) = kSrc (W0 m ρ c) := (keep4 m ρ c main_v1 (by decide)).trans ((keep3 m ρ c main_v1 (by decide)).trans (s2_v1 m ρ c))
theorem s4_v3 : W4 m ρ c (Proc.devRef .tc main_v3) = kDst (W0 m ρ c) := (keep4 m ρ c main_v3 (by decide)).trans ((keep3 m ρ c main_v3 (by decide)).trans (s2_v3 m ρ c))
theorem s4_v10 : W4 m ρ c (Proc.devRef .tc main_v10) = kDeg (W0 m ρ c) := (keep4 m ρ c main_v10 (by decide)).trans ((keep3 m ρ c main_v10 (by decide)).trans (s2_v10 m ρ c))

theorem s3_v36 : W3 m ρ c (Proc.devRef .tc main_v36) = meanAgg64 (kH1 (W0 m ρ c)) (kSrc (W0 m ρ c)) (kDst (W0 m ρ c)) (kDeg (W0 m ρ c)) := by
  refine (ops1_v36 (W2 m ρ c)).trans ?_
  rw [s2_v24, s2_v1, s2_v3, s2_v10]
theorem s3_v37 : W3 m ρ c (Proc.devRef .tc main_v37) = shapeCast S1x64 (arg (W0 m ρ c) main_arg7) shapeCasts_S64_S1x64 := by
  refine (ops1_v37 (W2 m ρ c)).trans ?_
  rw [q2 m ρ c main_arg7 (by decide)]

theorem s4_v38 : W4 m ρ c (Proc.devRef .tc main_v38) = kH2 (W0 m ρ c) := by
  refine (exitW_arr _ _ c launch1.win.arr_inj 5).trans ((final1 (E3 m ρ) c).trans ?_)
  show sageRows1 (W3 m ρ c (Proc.devRef .tc main_v36)) (W3 m ρ c (Proc.devRef .tc main_v24)) (W3 m ρ c (Proc.devRef .tc main_arg6)) (W3 m ρ c (Proc.devRef .tc main_v37)) (W3 m ρ c (Proc.devRef .tc main_arg8)) = _
  rw [s3_v36, s3_v37, keep3 m ρ c main_v24 (by decide), s2_v24, q3 m ρ c main_arg6 (by decide), q3 m ρ c main_arg8 (by decide)]
  rfl

theorem s5_v50 : W5 m ρ c (Proc.devRef .tc main_v50) = meanAgg64 (kH2 (W0 m ρ c)) (kSrc (W0 m ρ c)) (kDst (W0 m ρ c)) (kDeg (W0 m ρ c)) := by
  refine (ops2_v50 (W4 m ρ c)).trans ?_
  rw [s4_v38, s4_v1, s4_v3, s4_v10]
theorem s5_v51 : W5 m ρ c (Proc.devRef .tc main_v51) = shapeCast S1x64 (arg (W0 m ρ c) main_arg10) shapeCasts_S64_S1x64 := by
  refine (ops2_v51 (W4 m ρ c)).trans ?_
  rw [q4 m ρ c main_arg10 (by decide)]

theorem s6_v52 : W6 m ρ c (Proc.devRef .tc main_v52) = kH3 (W0 m ρ c) := by
  refine (exitW_arr _ _ c launch2.win.arr_inj 5).trans ((final2 (E5 m ρ) c).trans ?_)
  show sageRows1 (W5 m ρ c (Proc.devRef .tc main_v50)) (W5 m ρ c (Proc.devRef .tc main_v38)) (W5 m ρ c (Proc.devRef .tc main_arg9)) (W5 m ρ c (Proc.devRef .tc main_v51)) (W5 m ρ c (Proc.devRef .tc main_arg11)) = _
  rw [s5_v50, s5_v51, keep5 m ρ c main_v38 (by decide), s4_v38, q5 m ρ c main_arg9 (by decide), q5 m ρ c main_arg11 (by decide)]
  rfl

theorem s7_v53 : W7 m ρ c (Proc.devRef .tc main_v53) = shapeCast S50000x1 (arg (W0 m ρ c) main_arg2) shapeCasts_S50000_S50000x1 := by
  refine (ops3_v53 (W6 m ρ c)).trans ?_
  rw [q6 m ρ c main_arg2 (by decide)]
theorem s8_v54 : W8 m ρ c (Proc.devRef .tc main_v54) = kPsum (W0 m ρ c) := by
  refine (exitW_arr _ _ c launch3.win.arr_inj 2).trans ((final3 (E7 m ρ) c).trans ?_)
  show poolRows (W7 m ρ c (Proc.devRef .tc main_v52)) (W7 m ρ c (Proc.devRef .tc main_v53)) = _
  rw [s7_v53, keep7 m ρ c main_v52 (by decide), s6_v52]
  rfl

theorem s9_v63 : W9 m ρ c (Proc.devRef .tc main_v63) = kPooled (W0 m ρ c) := by
  refine (ops4_v63 (W8 m ρ c)).trans ?_
  rw [s8_v54, q8 m ρ c main_arg2 (by decide)]
  rfl
theorem s9_v64 : W9 m ρ c (Proc.devRef .tc main_v64) = shapeCast S1x256 (arg (W0 m ρ c) main_arg13) shapeCasts_S256_S1x256 := by
  refine (ops4_v64 (W8 m ρ c)).trans ?_
  rw [q8 m ρ c main_arg13 (by decide)]
theorem s9_v65 : W9 m ρ c (Proc.devRef .tc main_v65) = shapeCast S1x256 (arg (W0 m ρ c) main_arg14) shapeCasts_S256_S1x256 := by
  refine (ops4_v65 (W8 m ρ c)).trans ?_
  rw [q8 m ρ c main_arg14 (by decide)]
theorem s9_v66 : W9 m ρ c (Proc.devRef .tc main_v66) = shapeCast S1x256 (arg (W0 m ρ c) main_arg15) shapeCasts_S256_S1x256 := by
  refine (ops4_v66 (W8 m ρ c)).trans ?_
  rw [q8 m ρ c main_arg15 (by decide)]
theorem s9_v67 : W9 m ρ c (Proc.devRef .tc main_v67) = shapeCast S1x128 (arg (W0 m ρ c) main_arg17) shapeCasts_S128_S1x128 := by
  refine (ops4_v67 (W8 m ρ c)).trans ?_
  rw [q8 m ρ c main_arg17 (by decide)]
theorem s9_v68 : W9 m ρ c (Proc.devRef .tc main_v68) = shapeCast S1x128 (arg (W0 m ρ c) main_arg18) shapeCasts_S128_S1x128 := by
  refine (ops4_v68 (W8 m ρ c)).trans ?_
  rw [q8 m ρ c main_arg18 (by decide)]
theorem s9_v69 : W9 m ρ c (Proc.devRef .tc main_v69) = shapeCast S1x128 (arg (W0 m ρ c) main_arg19) shapeCasts_S128_S1x128 := by
  refine (ops4_v69 (W8 m ρ c)).trans ?_
  rw [q8 m ρ c main_arg19 (by decide)]
theorem s9_v70 : W9 m ρ c (Proc.devRef .tc main_v70) = shapeCast S1x64 (arg (W0 m ρ c) main_arg21) shapeCasts_S64_S1x64 := by
  refine (ops4_v70 (W8 m ρ c)).trans ?_
  rw [q8 m ρ c main_arg21 (by decide)]
theorem s9_v71 : W9 m ρ c (Proc.devRef .tc main_v71) = shapeCast S1x64 (arg (W0 m ρ c) main_arg22) shapeCasts_S64_S1x64 := by
  refine (ops4_v71 (W8 m ρ c)).trans ?_
  rw [q8 m ρ c main_arg22 (by decide)]
theorem s9_v72 : W9 m ρ c (Proc.devRef .tc main_v72) = shapeCast S1x64 (arg (W0 m ρ c) main_arg23) shapeCasts_S64_S1x64 := by
  refine (ops4_v72 (W8 m ρ c)).trans ?_
  rw [q8 m ρ c main_arg23 (by decide)]
theorem s9_v73 : W9 m ρ c (Proc.devRef .tc main_v73) = shapeCast S1x10 (arg (W0 m ρ c) main_arg25) shapeCasts_S10_S1x10 := by
  refine (ops4_v73 (W8 m ρ c)).trans ?_
  rw [q8 m ρ c main_arg25 (by decide)]

theorem s10_v74 : W10 m ρ c (Proc.devRef .tc main_v74) = kOut (W0 m ρ c) := by
  refine (exitW_arr _ _ c launch4.win.arr_inj 15).trans ((final4 (E9 m ρ) c).trans ?_)
  show k4_pay1 (k4_pay4 (k4_pay2 (W9 m ρ c (Proc.devRef .tc main_v63)) (W9 m ρ c (Proc.devRef .tc main_arg12)) (W9 m ρ c (Proc.devRef .tc main_v64)) (W9 m ρ c (Proc.devRef .tc main_v65)) (W9 m ρ c (Proc.devRef .tc main_v66)))
      (k4_pay3 (W9 m ρ c (Proc.devRef .tc main_arg16))) (constant S256x128 .f32 0x00000000#32) (W9 m ρ c (Proc.devRef .tc main_v67)) (W9 m ρ c (Proc.devRef .tc main_v68)) (W9 m ρ c (Proc.devRef .tc main_v69)) (W9 m ρ c (Proc.devRef .tc main_arg20)) (W9 m ρ c (Proc.devRef .tc main_v70)))
    (k4_pay5 (W9 m ρ c (Proc.devRef .tc main_v71))) (W9 m ρ c (Proc.devRef .tc main_v72)) (W9 m ρ c (Proc.devRef .tc main_arg24)) (W9 m ρ c (Proc.devRef .tc main_v73)) = _
  rw [s9_v63, s9_v64, s9_v65, s9_v66, s9_v67, s9_v68, s9_v69, s9_v70, s9_v71, s9_v72, s9_v73,
    q9 m ρ c main_arg12 (by decide), q9 m ρ c main_arg16 (by decide), q9 m ρ c main_arg20 (by decide), q9 m ρ c main_arg24 (by decide)]
  rfl

end Cert.KernelIdeal.Gen

end
-- ==== Proof.MlpLaw.lean ====
/- The perceptron on the extended reals: three layers of [matrix product + bias, normalisation over the rows, tanh], then a last
   matrix product + bias. One side multiplies by the reciprocal square root of (variance + ε), the other divides by its square root;
   `x / sqrt v = x * rsqrt v` whenever `0 < v`, and variance + ε is positive since a sum of squares is nonnegative and ε > 0. -/
import proofs.«409739_j33028298506661_1_alg».proof.Proof.Gen.KernelIdeal.Skeleton
import proofs.«409739_j33028298506661_1_alg».proof.Proof.Gen.ReferenceIdeal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

namespace Cert.Bridge

open Idealize.ShloMosaic Idealize.ShloMosaic.ValueIdx

section Reference
open Cert.ReferenceIdeal Cert.ReferenceIdeal.Gen

def z1 (c : FVec Ideal S256x64 .f32) (w1 : FVec Ideal S64x256 .f32) (b1 : FVec Ideal S256 .f32) : FVec Ideal S256x256 .f32 :=
  addf (Host.dotGeneral dot_S256x64_S64x256_S256x256_1_0_0_1_n_n none c w1) (broadcastInDim S256x256 ![0, 1] bcast_S1x256_S256x256_0_1 (broadcastInDim S1x256 ![1] bcast_S256_S1x256_1 b1))

def mean1 (c : FVec Ideal S256x64 .f32) (w1 : FVec Ideal S64x256 .f32) (b1 : FVec Ideal S256 .f32) : FVec Ideal S256 .f32 :=
  Host.divf (Host.reduceAdd (z1 c w1 b1) (constant S_ .f32 0x00000000#32) reducesTo_S256x256_S256_d0 h_S_) (broadcastInDim S256 ![] bcast_S_S256 (constant S_ .f32 0x43800000#32))

def zc1 (c : FVec Ideal S256x64 .f32) (w1 : FVec Ideal S64x256 .f32) (b1 : FVec Ideal S256 .f32) : FVec Ideal S256x256 .f32 :=
  subf (z1 c w1 b1) (broadcastInDim S256x256 ![0, 1] bcast_S1x256_S256x256_0_1 (broadcastInDim S1x256 ![1] bcast_S256_S1x256_1 (mean1 c w1 b1)))

def z2 (c : FVec Ideal S256x64 .f32) (w1 : FVec Ideal S64x256 .f32) (b1 g1 be1 : FVec Ideal S256 .f32)
    (w2 : FVec Ideal S256x128 .f32) (b2 : FVec Ideal S128 .f32) : FVec Ideal S256x128 .f32 :=
  addf (Host.dotGeneral dot_S256x256_S256x128_S256x128_1_0_0_1_n_n none (Host.tanh (addf (mulf (Host.divf (subf (z1 c w1 b1) (broadcastInDim S256x256 ![0, 1] bcast_S1x256_S256x256_0_1 (broadcastInDim S1x256 ![1] bcast_S256_S1x256_1 (mean1 c w1 b1)))) (broadcastInDim S256x256 ![0, 1] bcast_S1x256_S256x256_0_1 (broadcastInDim S1x256 ![1] bcast_S256_S1x256_1 (Host.sqrt (addf (Host.divf (Host.reduceAdd (mulf (zc1 c w1 b1) (zc1 c w1 b1)) (constant S_ .f32 0x00000000#32) reducesTo_S256x256_S256_d0 h_S_) (broadcastInDim S256 ![] bcast_S_S256 (constant S_ .f32 0x43800000#32))) (broadcastInDim S256 ![] bcast_S_S256 (constant S_ .f32 0x3727C5AC#32))))))) (broadcastInDim S256x256 ![0, 1] bcast_S1x256_S256x256_0_1 (broadcastInDim S1x256 ![1] bcast_S256_S1x256_1 g1))) (broadcastInDim S256x256 ![0, 1] bcast_S1x256_S256x256_0_1 (broadcastInDim S1x256 ![1] bcast_S256_S1x256_1 be1)))) w2) (broadcastInDim S256x128 ![0, 1] bcast_S1x128_S256x128_0_1 (broadcastInDim S1x128 ![1] bcast_S128_S1x128_1 b2))

def mean2 (c : FVec Ideal S256x64 .f32) (w1 : FVec Ideal S64x256 .f32) (b1 g1 be1 : FVec Ideal S256 .f32)
    (w2 : FVec Ideal S256x128 .f32) (b2 : FVec Ideal S128 .f32) : FVec Ideal S128 .f32 :=
  Host.divf (Host.reduceAdd (z2 c w1 b1 g1 be1 w2 b2) (constant S_ .f32 0x00000000#32) reducesTo_S256x128_S128_d0 h_S_) (broadcastInDim S128 ![] bcast_S_S128 (constant S_ .f32 0x43800000#32))

def zc2 (c : FVec Ideal S256x64 .f32) (w1 : FVec Ideal S64x256 .f32) (b1 g1 be1 : FVec Ideal S256 .f32)
    (w2 : FVec Ideal S256x128 .f32) (b2 : FVec Ideal S128 .f32) : FVec Ideal S256x128 .f32 :=
  subf (z2 c w1 b1 g1 be1 w2 b2) (broadcastInDim S256x128 ![0, 1] bcast_S1x128_S256x128_0_1 (broadcastInDim S1x128 ![1] bcast_S128_S1x128_1 (mean2 c w1 b1 g1 be1 w2 b2)))

def z3 (c : FVec Ideal S256x64 .f32) (w1 : FVec Ideal S64x256 .f32) (b1 g1 be1 : FVec Ideal S256 .f32)
    (w2 : FVec Ideal S256x128 .f32) (b2 g2 be2 : FVec Ideal S128 .f32)
    (w3 : FVec Ideal S128x64 .f32) (b3 : FVec Ideal S64 .f32) : FVec Ideal S256x64 .f32 :=
  addf (Host.dotGeneral dot_S256x128_S128x64_S256x64_1_0_0_1_n_n none (Host.tanh (addf (mulf (Host.divf (subf (z2 c w1 b1 g1 be1 w2 b2) (broadcastInDim S256x128 ![0, 1] bcast_S1x128_S256x128_0_1 (broadcastInDim S1x128 ![1] bcast_S128_S1x128_1 (mean2 c w1 b1 g1 be1 w2 b2)))) (broadcastInDim S256x128 ![0, 1] bcast_S1x128_S256x128_0_1 (broadcastInDim S1x128 ![1] bcast_S128_S1x128_1 (Host.sqrt (addf (Host.divf (Host.reduceAdd (mulf (zc2 c w1 b1 g1 be1 w2 b2) (zc2 c w1 b1 g1 be1 w2 b2)) (constant S_ .f32 0x00000000#32) reducesTo_S256x128_S128_d0 h_S_) (broadcastInDim S128 ![] bcast_S_S128 (constant S_ .f32 0x43800000#32))) (broadcastInDim S128 ![] bcast_S_S128 (constant S_ .f32 0x3727C5AC#32))))))) (broadcastInDim S256x128 ![0, 1] bcast_S1x128_S256x128_0_1 (broadcastInDim S1x128 ![1] bcast_S128_S1x128_1 g2))) (broadcastInDim S256x128 ![0, 1] bcast_S1x128_S256x128_0_1 (broadcastInDim S1x128 ![1] bcast_S128_S1x128_1 be2)))) w3) (broadcastInDim S256x64 ![0, 1] bcast_S1x64_S256x64_0_1 (broadcastInDim S1x64 ![1] bcast_S64_S1x64_1 b3))

def mean3 (c : FVec Ideal S256x64 .f32) (w1 : FVec Ideal S64x256 .f32) (b1 g1 be1 : FVec Ideal S256 .f32)
    (w2 : FVec Ideal S256x128 .f32) (b2 g2 be2 : FVec Ideal S128 .f32)
    (w3 : FVec Ideal S128x64 .f32) (b3 : FVec Ideal S64 .f32) : FVec Ideal S64 .f32 :=
  Host.divf (Host.reduceAdd (z3 c w1 b1 g1 be1 w2 b2 g2 be2 w3 b3) (constant S_ .f32 0x00000000#32) reducesTo_S256x64_S64_d0 h_S_) (broadcastInDim S64 ![] bcast_S_S64 (constant S_ .f32 0x43800000#32))

def zc3 (c : FVec Ideal S256x64 .f32) (w1 : FVec Ideal S64x256 .f32) (b1 g1 be1 : FVec Ideal S256 .f32)
    (w2 : FVec Ideal S256x128 .f32) (b2 g2 be2 : FVec Ideal S128 .f32)
    (w3 : FVec Ideal S128x64 .f32) (b3 : FVec Ideal S64 .f32) : FVec Ideal S256x64 .f32 :=
  subf (z3 c w1 b1 g1 be1 w2 b2 g2 be2 w3 b3) (broadcastInDim S256x64 ![0, 1] bcast_S1x64_S256x64_0_1 (broadcastInDim S1x64 ![1] bcast_S64_S1x64_1 (mean3 c w1 b1 g1 be1 w2 b2 g2 be2 w3 b3)))

def mlpRef (c : FVec Ideal S256x64 .f32) (w1 : FVec Ideal S64x256 .f32) (b1 g1 be1 : FVec Ideal S256 .f32)
    (w2 : FVec Ideal S256x128 .f32) (b2 g2 be2 : FVec Ideal S128 .f32)
    (w3 : FVec Ideal S128x64 .f32) (b3 g3 be3 : FVec Ideal S64 .f32)
    (w4 : FVec Ideal S64x10 .f32) (b4 : FVec Ideal S10 .f32) : FVec Ideal S256x10 .f32 :=
  addf (Host.dotGeneral dot_S256x64_S64x10_S256x10_1_0_0_1_n_n none (Host.tanh (addf (mulf (Host.divf (subf (z3 c w1 b1 g1 be1 w2 b2 g2 be2 w3 b3) (broadcastInDim S256x64 ![0, 1] bcast_S1x64_S256x64_0_1 (broadcastInDim S1x64 ![1] bcast_S64_S1x64_1 (mean3 c w1 b1 g1 be1 w2 b2 g2 be2 w3 b3)))) (broadcastInDim S256x64 ![0, 1] bcast_S1x64_S256x64_0_1 (broadcastInDim S1x64 ![1] bcast_S64_S1x64_1 (Host.sqrt (addf (Host.divf (Host.reduceAdd (mulf (zc3 c w1 b1 g1 be1 w2 b2 g2 be2 w3 b3) (zc3 c w1 b1 g1 be1 w2 b2 g2 be2 w3 b3)) (constant S_ .f32 0x00000000#32) reducesTo_S256x64_S64_d0 h_S_) (broadcastInDim S64 ![] bcast_S_S64 (constant S_ .f32 0x43800000#32))) (broadcastInDim S64 ![] bcast_S_S64 (constant S_ .f32 0x3727C5AC#32))))))) (broadcastInDim S256x64 ![0, 1] bcast_S1x64_S256x64_0_1 (broadcastInDim S1x64 ![1] bcast_S64_S1x64_1 g3))) (broadcastInDim S256x64 ![0, 1] bcast_S1x64_S256x64_0_1 (broadcastInDim S1x64 ![1] bcast_S64_S1x64_1 be3)))) w4) (broadcastInDim S256x10 ![0, 1] bcast_S1x10_S256x10_0_1 (broadcastInDim S1x10 ![1] bcast_S10_S1x10_1 b4))

end Reference

section Scalars

theorem ofBits_256 : Ideal.ofBits .f32 0x43800000#32 = ((256 : ℝ) : EReal) := by
  simp [Ideal.ofBits, Ideal.ieee, -EReal.coe_mul]; norm_num

theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

theorem ereal_mul_self_nonneg (y : EReal) : 0 ≤ y * y := by
  induction y using EReal.rec with
  | bot => rw [EReal.bot_mul_bot]; exact le_top
  | top => rw [EReal.top_mul_top]; exact le_top
  | coe r => rw [← EReal.coe_mul]; exact EReal.coe_nonneg.mpr (mul_self_nonneg r)

theorem div_sqrt_eq_mul_rsqrt (x v : EReal) (hv : 0 < v) : Ideal.div x (Ideal.sqrt v) = x * Ideal.rsqrt v := by
  induction v using EReal.rec with
  | bot => exact absurd hv (not_lt.mpr bot_le)
  | top =>
    rw [Ideal.sqrt_top, Ideal.rsqrt_top, Ideal.div, if_neg (by simp), EReal.inv_top]
  | coe r =>
    have hr : 0 < r := EReal.coe_pos.mp hv
    have hs : Real.sqrt r ≠ 0 := (Real.sqrt_pos.mpr hr).ne'
    rw [Ideal.sqrt_coe, Ideal.rsqrt_coe, if_neg (not_lt.mpr hr.le), if_neg (not_lt.mpr hr.le), if_neg hr.ne',
      Ideal.div, if_neg (by exact_mod_cast hs), EReal.coe_inv]

theorem var_eps_pos (s : EReal) (hs : 0 ≤ s) :
    0 < Ideal.div (0 + s) (Ideal.ofBits .f32 0x43800000#32) + Ideal.ofBits .f32 0x3727C5AC#32 := by
  obtain ⟨e, he, hee⟩ := ofBits_eps_pos
  rw [ofBits_256, hee, zero_add, Ideal.div_coe (by norm_num) s]
  have h1 : (0 : EReal) ≤ s * ((1 / 256 : ℝ) : EReal) :=
    mul_nonneg hs (EReal.coe_nonneg.mpr (by norm_num))
  exact lt_of_lt_of_le (EReal.coe_pos.mpr he) (le_add_of_nonneg_left h1)

end Scalars

section Layout
variable {α : Type}

theorem broadcastInDim_vecRow_apply {n : Nat} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) ?_
  intro a
  match a with
  | ⟨0, _⟩ =>
    show t.val = if n = 1 then 0 else t.val
    split
    · have := t.isLt; omega
    · rfl

theorem rowBroadcast_eq {m n : Nat} (x : (⟨1, ![n]⟩ : Shape).Idx → α)
    (sc : (⟨1, ![n]⟩ : Shape).ShapeCasts ⟨2, ![1, n]⟩)
    (bc : (⟨2, ![1, n]⟩ : Shape).Broadcasts ⟨2, ![m, n]⟩)
    (b1 : (⟨1, ![n]⟩ : Shape).BroadcastsInDim ⟨2, ![1, n]⟩ ![1])
    (b2 : (⟨2, ![1, n]⟩ : Shape).BroadcastsInDim ⟨2, ![m, n]⟩ ![0, 1]) :
    broadcastTo ⟨2, ![m, n]⟩ (shapeCast ⟨2, ![1, n]⟩ x sc) bc
      = broadcastInDim ⟨2, ![m, n]⟩ ![0, 1] b2 (broadcastInDim ⟨2, ![1, n]⟩ ![1] b1 x) := by
  funext i
  obtain ⟨p, q, rfl⟩ : ∃ (p : Fin m) (q : Fin n), i = ix2 p q := ⟨i 0, i 1, eq_ix2 i⟩
  rw [broadcastTo_1b_ab_apply, shapeCast_a_1a_apply, broadcastInDim_oneRow_apply, broadcastInDim_vecRow_apply]

end Layout

section Generic
variable {m n : Nat} {a : Fin (Shape.rank ⟨2, ![m, n]⟩)}

def kMean (z : FVec Ideal ⟨2, ![m, n]⟩ .f32) (red : Shape.Reduces ⟨2, ![m, n]⟩ [a] ⟨1, ![n]⟩)
    (sc : (⟨1, ![n]⟩ : Shape).ShapeCasts ⟨2, ![1, n]⟩) : FVec Ideal ⟨2, ![1, n]⟩ .f32 :=
  divf (shapeCast ⟨2, ![1, n]⟩ (multiReduction .add [a] ⟨1, ![n]⟩ z 0x00000000#32 red (.inl rfl) rfl) sc)
    (broadcast ⟨2, ![1, n]⟩ (Scalar.ofBits .f32 0x43800000#32))

def kAct (z : FVec Ideal ⟨2, ![m, n]⟩ .f32) (gr ber : FVec Ideal ⟨2, ![1, n]⟩ .f32)
    (red : Shape.Reduces ⟨2, ![m, n]⟩ [a] ⟨1, ![n]⟩) (sc : (⟨1, ![n]⟩ : Shape).ShapeCasts ⟨2, ![1, n]⟩)
    (bc : (⟨2, ![1, n]⟩ : Shape).Broadcasts ⟨2, ![m, n]⟩) : FVec Ideal ⟨2, ![m, n]⟩ .f32 :=
  tanh (addf (mulf (mulf (subf z (broadcastTo ⟨2, ![m, n]⟩ (kMean z red sc) bc))
      (broadcastTo ⟨2, ![m, n]⟩ (rsqrt (addf (kMean (mulf (subf z (broadcastTo ⟨2, ![m, n]⟩ (kMean z red sc) bc)) (subf z (broadcastTo ⟨2, ![m, n]⟩ (kMean z red sc) bc))) red sc) (broadcast ⟨2, ![1, n]⟩ (Scalar.ofBits .f32 0x3727C5AC#32)))) bc))
      (broadcastTo ⟨2, ![m, n]⟩ gr bc)) (broadcastTo ⟨2, ![m, n]⟩ ber bc))

def rMean (z : FVec Ideal ⟨2, ![m, n]⟩ .f32) (rt : Shape.ReducesTo ⟨2, ![m, n]⟩ [a] ⟨1, ![n]⟩)
    (hS : 0 < (⟨0, ![]⟩ : Shape).numel) (b0 : (⟨0, ![]⟩ : Shape).BroadcastsInDim ⟨1, ![n]⟩ ![]) : FVec Ideal ⟨1, ![n]⟩ .f32 :=
  Host.divf (Host.reduceAdd z (constant ⟨0, ![]⟩ .f32 0x00000000#32) rt hS) (broadcastInDim ⟨1, ![n]⟩ ![] b0 (constant ⟨0, ![]⟩ .f32 0x43800000#32))

def rAct (z : FVec Ideal ⟨2, ![m, n]⟩ .f32) (g be : FVec Ideal ⟨1, ![n]⟩ .f32)
    (rt : Shape.ReducesTo ⟨2, ![m, n]⟩ [a] ⟨1, ![n]⟩)
    (hS : 0 < (⟨0, ![]⟩ : Shape).numel) (b0 : (⟨0, ![]⟩ : Shape).BroadcastsInDim ⟨1, ![n]⟩ ![])
    (b1 : (⟨1, ![n]⟩ : Shape).BroadcastsInDim ⟨2, ![1, n]⟩ ![1])
    (b2 : (⟨2, ![1, n]⟩ : Shape).BroadcastsInDim ⟨2, ![m, n]⟩ ![0, 1]) : FVec Ideal ⟨2, ![m, n]⟩ .f32 :=
  Host.tanh (addf (mulf (Host.divf (subf z (broadcastInDim ⟨2, ![m, n]⟩ ![0, 1] b2 (broadcastInDim ⟨2, ![1, n]⟩ ![1] b1 (rMean z rt hS b0))))
      (broadcastInDim ⟨2, ![m, n]⟩ ![0, 1] b2 (broadcastInDim ⟨2, ![1, n]⟩ ![1] b1 (Host.sqrt (addf (rMean (mulf (subf z (broadcastInDim ⟨2, ![m, n]⟩ ![0, 1] b2 (broadcastInDim ⟨2, ![1, n]⟩ ![1] b1 (rMean z rt hS b0)))) (subf z (broadcastInDim ⟨2, ![m, n]⟩ ![0, 1] b2 (broadcastInDim ⟨2, ![1, n]⟩ ![1] b1 (rMean z rt hS b0))))) rt hS b0) (broadcastInDim ⟨1, ![n]⟩ ![] b0 (constant ⟨0, ![]⟩ .f32 0x3727C5AC#32)))))))
      (broadcastInDim ⟨2, ![m, n]⟩ ![0, 1] b2 (broadcastInDim ⟨2, ![1, n]⟩ ![1] b1 g))) (broadcastInDim ⟨2, ![m, n]⟩ ![0, 1] b2 (broadcastInDim ⟨2, ![1, n]⟩ ![1] b1 be)))

theorem kMean_eq (z : FVec Ideal ⟨2, ![m, n]⟩ .f32) (red : Shape.Reduces ⟨2, ![m, n]⟩ [a] ⟨1, ![n]⟩)
    (rt : Shape.ReducesTo ⟨2, ![m, n]⟩ [a] ⟨1, ![n]⟩) (sc : (⟨1, ![n]⟩ : Shape).ShapeCasts ⟨2, ![1, n]⟩)
    (hS : 0 < (⟨0, ![]⟩ : Shape).numel) (b0 : (⟨0, ![]⟩ : Shape).BroadcastsInDim ⟨1, ![n]⟩ ![]) :
    kMean z red sc = shapeCast ⟨2, ![1, n]⟩ (rMean z rt hS b0) sc := by
  unfold kMean rMean
  rw [multiReduction_add_eq_hostReduceAdd z 0x00000000#32 red (.inl rfl) rfl (constant ⟨0, ![]⟩ .f32 0x00000000#32) rt hS
    Ideal.ofBits_zero_f32]
  rfl

theorem rVar_eps_pos (D : FVec Ideal ⟨2, ![m, n]⟩ .f32) (red : Shape.Reduces ⟨2, ![m, n]⟩ [a] ⟨1, ![n]⟩)
    (rt : Shape.ReducesTo ⟨2, ![m, n]⟩ [a] ⟨1, ![n]⟩)
    (hS : 0 < (⟨0, ![]⟩ : Shape).numel) (b0 : (⟨0, ![]⟩ : Shape).BroadcastsInDim ⟨1, ![n]⟩ ![])
    (j : (⟨1, ![n]⟩ : Shape).Idx) :
    0 < addf (rMean (mulf D D) rt hS b0) (broadcastInDim ⟨1, ![n]⟩ ![] b0 (constant ⟨0, ![]⟩ .f32 0x3727C5AC#32)) j := by
  show 0 < Ideal.div (Ideal.hostReduceAdd rt (mulf D D) (Ideal.ofBits .f32 0x00000000#32) j) (Ideal.ofBits .f32 0x43800000#32)
      + Ideal.ofBits .f32 0x3727C5AC#32
  rw [Ideal.hostReduceAdd_single rt red, Ideal.ofBits_zero_f32]
  exact var_eps_pos _ (Finset.sum_nonneg fun k _ => ereal_mul_self_nonneg _)

end Generic

section GenericLaws
variable {m n : Nat} {a : Fin (Shape.rank ⟨2, ![m, n]⟩)}

theorem mul_rsqrt_eq_div_sqrt (D : FVec Ideal ⟨2, ![m, n]⟩ .f32) (W : FVec Ideal ⟨1, ![n]⟩ .f32) (hW : ∀ j, 0 < W j)
    (b1 : (⟨1, ![n]⟩ : Shape).BroadcastsInDim ⟨2, ![1, n]⟩ ![1])
    (b2 : (⟨2, ![1, n]⟩ : Shape).BroadcastsInDim ⟨2, ![m, n]⟩ ![0, 1]) :
    mulf D (broadcastInDim ⟨2, ![m, n]⟩ ![0, 1] b2 (broadcastInDim ⟨2, ![1, n]⟩ ![1] b1 (rsqrt W)))
      = Host.divf D (broadcastInDim ⟨2, ![m, n]⟩ ![0, 1] b2 (broadcastInDim ⟨2, ![1, n]⟩ ![1] b1 (Host.sqrt W))) := by
  funext i
  obtain ⟨p, q, rfl⟩ : ∃ (p : Fin m) (q : Fin n), i = ix2 p q := ⟨i 0, i 1, eq_ix2 i⟩
  show D (ix2 p q) * (broadcastInDim ⟨2, ![m, n]⟩ ![0, 1] b2 (broadcastInDim ⟨2, ![1, n]⟩ ![1] b1 (rsqrt W))) (ix2 p q)
      = Ideal.div (D (ix2 p q)) ((broadcastInDim ⟨2, ![m, n]⟩ ![0, 1] b2 (broadcastInDim ⟨2, ![1, n]⟩ ![1] b1 (Host.sqrt W))) (ix2 p q))
  rw [broadcastInDim_oneRow_apply, broadcastInDim_vecRow_apply, broadcastInDim_oneRow_apply, broadcastInDim_vecRow_apply]
  exact (div_sqrt_eq_mul_rsqrt _ _ (hW (ix1 q))).symm

theorem act_law (z : FVec Ideal ⟨2, ![m, n]⟩ .f32) (g be : FVec Ideal ⟨1, ![n]⟩ .f32)
    (red : Shape.Reduces ⟨2, ![m, n]⟩ [a] ⟨1, ![n]⟩) (rt : Shape.ReducesTo ⟨2, ![m, n]⟩ [a] ⟨1, ![n]⟩)
    (sc : (⟨1, ![n]⟩ : Shape).ShapeCasts ⟨2, ![1, n]⟩) (bc : (⟨2, ![1, n]⟩ : Shape).Broadcasts ⟨2, ![m, n]⟩)
    (hS : 0 < (⟨0, ![]⟩ : Shape).numel) (b0 : (⟨0, ![]⟩ : Shape).BroadcastsInDim ⟨1, ![n]⟩ ![])
    (b1 : (⟨1, ![n]⟩ : Shape).BroadcastsInDim ⟨2, ![1, n]⟩ ![1])
    (b2 : (⟨2, ![1, n]⟩ : Shape).BroadcastsInDim ⟨2, ![m, n]⟩ ![0, 1]) :
    kAct z (shapeCast ⟨2, ![1, n]⟩ g sc) (shapeCast ⟨2, ![1, n]⟩ be sc) red sc bc = rAct z g be rt hS b0 b1 b2 := by
  unfold kAct rAct
  rw [kMean_eq z red rt sc hS b0, rowBroadcast_eq (rMean z rt hS b0) sc bc b1 b2,
    kMean_eq (mulf _ _) red rt sc hS b0, rowBroadcast_eq g sc bc b1 b2, rowBroadcast_eq be sc bc b1 b2]
  have hr : rsqrt (addf (shapeCast ⟨2, ![1, n]⟩ (rMean (mulf (subf z (broadcastInDim ⟨2, ![m, n]⟩ ![0, 1] b2 (broadcastInDim ⟨2, ![1, n]⟩ ![1] b1 (rMean z rt hS b0)))) (subf z (broadcastInDim ⟨2, ![m, n]⟩ ![0, 1] b2 (broadcastInDim ⟨2, ![1, n]⟩ ![1] b1 (rMean z rt hS b0))))) rt hS b0) sc) (broadcast ⟨2, ![1, n]⟩ (Scalar.ofBits .f32 0x3727C5AC#32)))
      = shapeCast ⟨2, ![1, n]⟩ (rsqrt (addf (rMean (mulf (subf z (broadcastInDim ⟨2, ![m, n]⟩ ![0, 1] b2 (broadcastInDim ⟨2, ![1, n]⟩ ![1] b1 (rMean z rt hS b0)))) (subf z (broadcastInDim ⟨2, ![m, n]⟩ ![0, 1] b2 (broadcastInDim ⟨2, ![1, n]⟩ ![1] b1 (rMean z rt hS b0))))) rt hS b0) (broadcastInDim ⟨1, ![n]⟩ ![] b0 (constant ⟨0, ![]⟩ .f32 0x3727C5AC#32)))) sc := rfl
  rw [hr, rowBroadcast_eq _ sc bc b1 b2, mul_rsqrt_eq_div_sqrt _ _ (rVar_eps_pos _ red rt hS b0) b1 b2]
  rfl

theorem lin_law {sl sr : Shape} (d : DotDims sl sr ⟨2, ![m, n]⟩) (x : FVec Ideal sl .f32) (w : FVec Ideal sr .f32)
    (b : FVec Ideal ⟨1, ![n]⟩ .f32) (hx hw : FTy.bits .bf16 < FTy.bits .f32)
    (sc : (⟨1, ![n]⟩ : Shape).ShapeCasts ⟨2, ![1, n]⟩) (bc : (⟨2, ![1, n]⟩ : Shape).Broadcasts ⟨2, ![m, n]⟩)
    (b1 : (⟨1, ![n]⟩ : Shape).BroadcastsInDim ⟨2, ![1, n]⟩ ![1])
    (b2 : (⟨2, ![1, n]⟩ : Shape).BroadcastsInDim ⟨2, ![m, n]⟩ ![0, 1]) :
    addf (matmul d none (truncf .bf16 x hx) (truncf .bf16 w hw) (constant ⟨2, ![m, n]⟩ .f32 0x00000000#32))
        (broadcastTo ⟨2, ![m, n]⟩ (shapeCast ⟨2, ![1, n]⟩ b sc) bc)
      = addf (Host.dotGeneral d none x w)
        (broadcastInDim ⟨2, ![m, n]⟩ ![0, 1] b2 (broadcastInDim ⟨2, ![1, n]⟩ ![1] b1 b)) := by
  rw [rowBroadcast_eq b sc bc b1 b2, matmul_zero_eq_dotGeneral]
  rfl

end GenericLaws

abbrev row256 (v : FVec Ideal Cert.KernelIdeal.S256 .f32) : FVec Ideal Cert.KernelIdeal.S1x256 .f32 :=
  shapeCast Cert.KernelIdeal.S1x256 v Cert.KernelIdeal.Gen.shapeCasts_S256_S1x256

abbrev row128 (v : FVec Ideal Cert.KernelIdeal.S128 .f32) : FVec Ideal Cert.KernelIdeal.S1x128 .f32 :=
  shapeCast Cert.KernelIdeal.S1x128 v Cert.KernelIdeal.Gen.shapeCasts_S128_S1x128

abbrev row64 (v : FVec Ideal Cert.KernelIdeal.S64 .f32) : FVec Ideal Cert.KernelIdeal.S1x64 .f32 :=
  shapeCast Cert.KernelIdeal.S1x64 v Cert.KernelIdeal.Gen.shapeCasts_S64_S1x64

abbrev row10 (v : FVec Ideal Cert.KernelIdeal.S10 .f32) : FVec Ideal Cert.KernelIdeal.S1x10 .f32 :=
  shapeCast Cert.KernelIdeal.S1x10 v Cert.KernelIdeal.Gen.shapeCasts_S10_S1x10

section Payloads

theorem pay2_eq (c : FVec Ideal Cert.KernelIdeal.S256x64 .f32) (w1 : FVec Ideal Cert.KernelIdeal.S64x256 .f32)
    (r1 r2 r3 : FVec Ideal Cert.KernelIdeal.S1x256 .f32) :
    Cert.KernelIdeal.Gen.k4_pay2 (F := Ideal) c w1 r1 r2 r3
      = truncf .bf16 (kAct (addf (matmul Cert.KernelIdeal.dot_S256x64_S64x256_S256x256_1_0_0_1_n_n none (truncf .bf16 (shapeCast Cert.KernelIdeal.S256x64 c Cert.KernelIdeal.Gen.shapeCasts_S256x64_S256x64) Cert.KernelIdeal.Gen.bitsLt_bf16_f32) (truncf .bf16 w1 Cert.KernelIdeal.Gen.bitsLt_bf16_f32) (constant Cert.KernelIdeal.S256x256 .f32 0x00000000#32)) (broadcastTo Cert.KernelIdeal.S256x256 (shapeCast Cert.KernelIdeal.S1x256 r1 Cert.KernelIdeal.Gen.shapeCasts_S1x256_S1x256) Cert.KernelIdeal.Gen.broadcasts_S1x256_S256x256)) (shapeCast Cert.KernelIdeal.S1x256 r2 Cert.KernelIdeal.Gen.shapeCasts_S1x256_S1x256) (shapeCast Cert.KernelIdeal.S1x256 r3 Cert.KernelIdeal.Gen.shapeCasts_S1x256_S1x256) Cert.KernelIdeal.Gen.reduces_S256x256_S256 Cert.KernelIdeal.Gen.shapeCasts_S256_S1x256 Cert.KernelIdeal.Gen.broadcasts_S1x256_S256x256) Cert.KernelIdeal.Gen.bitsLt_bf16_f32 := rfl

theorem pay3_eq (w2 : FVec Ideal Cert.KernelIdeal.S256x128 .f32) :
    Cert.KernelIdeal.Gen.k4_pay3 (F := Ideal) w2 = truncf .bf16 w2 Cert.KernelIdeal.Gen.bitsLt_bf16_f32 := rfl

theorem pay4_eq (x : FVec Ideal Cert.KernelIdeal.S256x256 .bf16) (w2 : FVec Ideal Cert.KernelIdeal.S256x128 .bf16)
    (acc : FVec Ideal Cert.KernelIdeal.S256x128 .f32) (r1 r2 r3 : FVec Ideal Cert.KernelIdeal.S1x128 .f32)
    (w3 : FVec Ideal Cert.KernelIdeal.S128x64 .f32) (rb3 : FVec Ideal Cert.KernelIdeal.S1x64 .f32) :
    Cert.KernelIdeal.Gen.k4_pay4 (F := Ideal) x w2 acc r1 r2 r3 w3 rb3
      = addf (matmul Cert.KernelIdeal.dot_S256x128_S128x64_S256x64_1_0_0_1_n_n none (truncf .bf16 (kAct (addf (matmul Cert.KernelIdeal.dot_S256x256_S256x128_S256x128_1_0_0_1_n_n none x w2 acc) (broadcastTo Cert.KernelIdeal.S256x128 (shapeCast Cert.KernelIdeal.S1x128 r1 Cert.KernelIdeal.Gen.shapeCasts_S1x128_S1x128) Cert.KernelIdeal.Gen.broadcasts_S1x128_S256x128)) (shapeCast Cert.KernelIdeal.S1x128 r2 Cert.KernelIdeal.Gen.shapeCasts_S1x128_S1x128) (shapeCast Cert.KernelIdeal.S1x128 r3 Cert.KernelIdeal.Gen.shapeCasts_S1x128_S1x128) Cert.KernelIdeal.Gen.reduces_S256x128_S128 Cert.KernelIdeal.Gen.shapeCasts_S128_S1x128 Cert.KernelIdeal.Gen.broadcasts_S1x128_S256x128) Cert.KernelIdeal.Gen.bitsLt_bf16_f32) (truncf .bf16 w3 Cert.KernelIdeal.Gen.bitsLt_bf16_f32) (constant Cert.KernelIdeal.S256x64 .f32 0x00000000#32)) (broadcastTo Cert.KernelIdeal.S256x64 (shapeCast Cert.KernelIdeal.S1x64 rb3 Cert.KernelIdeal.Gen.shapeCasts_S1x64_S1x64) Cert.KernelIdeal.Gen.broadcasts_S1x64_S256x64) := rfl

theorem pay5_eq (r : FVec Ideal Cert.KernelIdeal.S1x64 .f32) :
    Cert.KernelIdeal.Gen.k4_pay5 (F := Ideal) r = shapeCast Cert.KernelIdeal.S1x64 r Cert.KernelIdeal.Gen.shapeCasts_S1x64_S1x64 := rfl

theorem pay1_eq (z : FVec Ideal Cert.KernelIdeal.S256x64 .f32) (r2 r3 : FVec Ideal Cert.KernelIdeal.S1x64 .f32)
    (w4 : FVec Ideal Cert.KernelIdeal.S64x10 .f32) (rb4 : FVec Ideal Cert.KernelIdeal.S1x10 .f32) :
    Cert.KernelIdeal.Gen.k4_pay1 (F := Ideal) z r2 r3 w4 rb4
      = addf (matmul Cert.KernelIdeal.dot_S256x64_S64x10_S256x10_1_0_0_1_n_n none (truncf .bf16 (kAct z r2 (shapeCast Cert.KernelIdeal.S1x64 r3 Cert.KernelIdeal.Gen.shapeCasts_S1x64_S1x64) Cert.KernelIdeal.Gen.reduces_S256x64_S64 Cert.KernelIdeal.Gen.shapeCasts_S64_S1x64 Cert.KernelIdeal.Gen.broadcasts_S1x64_S256x64) Cert.KernelIdeal.Gen.bitsLt_bf16_f32) (truncf .bf16 w4 Cert.KernelIdeal.Gen.bitsLt_bf16_f32) (constant Cert.KernelIdeal.S256x10 .f32 0x00000000#32)) (broadcastTo Cert.KernelIdeal.S256x10 (shapeCast Cert.KernelIdeal.S1x10 rb4 Cert.KernelIdeal.Gen.shapeCasts_S1x10_S1x10) Cert.KernelIdeal.Gen.broadcasts_S1x10_S256x10) := rfl

end Payloads

section ReferenceLayers
open Cert.ReferenceIdeal Cert.ReferenceIdeal.Gen

theorem z2_eq (c : FVec Ideal S256x64 .f32) (w1 : FVec Ideal S64x256 .f32) (b1 g1 be1 : FVec Ideal S256 .f32)
    (w2 : FVec Ideal S256x128 .f32) (b2 : FVec Ideal S128 .f32) :
    z2 c w1 b1 g1 be1 w2 b2
      = addf (Host.dotGeneral dot_S256x256_S256x128_S256x128_1_0_0_1_n_n none
          (rAct (z1 c w1 b1) g1 be1 reducesTo_S256x256_S256_d0 h_S_ bcast_S_S256 bcast_S256_S1x256_1 bcast_S1x256_S256x256_0_1) w2)
        (broadcastInDim S256x128 ![0, 1] bcast_S1x128_S256x128_0_1 (broadcastInDim S1x128 ![1] bcast_S128_S1x128_1 b2)) := rfl

theorem z3_eq (c : FVec Ideal S256x64 .f32) (w1 : FVec Ideal S64x256 .f32) (b1 g1 be1 : FVec Ideal S256 .f32)
    (w2 : FVec Ideal S256x128 .f32) (b2 g2 be2 : FVec Ideal S128 .f32)
    (w3 : FVec Ideal S128x64 .f32) (b3 : FVec Ideal S64 .f32) :
    z3 c w1 b1 g1 be1 w2 b2 g2 be2 w3 b3
      = addf (Host.dotGeneral dot_S256x128_S128x64_S256x64_1_0_0_1_n_n none
          (rAct (z2 c w1 b1 g1 be1 w2 b2) g2 be2 reducesTo_S256x128_S128_d0 h_S_ bcast_S_S128 bcast_S128_S1x128_1 bcast_S1x128_S256x128_0_1) w3)
        (broadcastInDim S256x64 ![0, 1] bcast_S1x64_S256x64_0_1 (broadcastInDim S1x64 ![1] bcast_S64_S1x64_1 b3)) := rfl

theorem mlpRef_eq (c : FVec Ideal S256x64 .f32) (w1 : FVec Ideal S64x256 .f32) (b1 g1 be1 : FVec Ideal S256 .f32)
    (w2 : FVec Ideal S256x128 .f32) (b2 g2 be2 : FVec Ideal S128 .f32)
    (w3 : FVec Ideal S128x64 .f32) (b3 g3 be3 : FVec Ideal S64 .f32)
    (w4 : FVec Ideal S64x10 .f32) (b4 : FVec Ideal S10 .f32) :
    mlpRef c w1 b1 g1 be1 w2 b2 g2 be2 w3 b3 g3 be3 w4 b4
      = addf (Host.dotGeneral dot_S256x64_S64x10_S256x10_1_0_0_1_n_n none
          (rAct (z3 c w1 b1 g1 be1 w2 b2 g2 be2 w3 b3) g3 be3 reducesTo_S256x64_S64_d0 h_S_ bcast_S_S64 bcast_S64_S1x64_1 bcast_S1x64_S256x64_0_1) w4)
        (broadcastInDim S256x10 ![0, 1] bcast_S1x10_S256x10_0_1 (broadcastInDim S1x10 ![1] bcast_S10_S1x10_1 b4)) := rfl

end ReferenceLayers

section Dots
theorem dot1_eq : Cert.KernelIdeal.dot_S256x64_S64x256_S256x256_1_0_0_1_n_n = Cert.ReferenceIdeal.dot_S256x64_S64x256_S256x256_1_0_0_1_n_n := rfl
theorem dot2_eq : Cert.KernelIdeal.dot_S256x256_S256x128_S256x128_1_0_0_1_n_n = Cert.ReferenceIdeal.dot_S256x256_S256x128_S256x128_1_0_0_1_n_n := rfl
theorem dot3_eq : Cert.KernelIdeal.dot_S256x128_S128x64_S256x64_1_0_0_1_n_n = Cert.ReferenceIdeal.dot_S256x128_S128x64_S256x64_1_0_0_1_n_n := rfl
theorem dot4_eq : Cert.KernelIdeal.dot_S256x64_S64x10_S256x10_1_0_0_1_n_n = Cert.ReferenceIdeal.dot_S256x64_S64x10_S256x10_1_0_0_1_n_n := rfl
end Dots

theorem mlp_law (c : FVec Ideal Cert.ReferenceIdeal.S256x64 .f32) (w1 : FVec Ideal Cert.ReferenceIdeal.S64x256 .f32)
    (b1 g1 be1 : FVec Ideal Cert.ReferenceIdeal.S256 .f32)
    (w2 : FVec Ideal Cert.ReferenceIdeal.S256x128 .f32) (b2 g2 be2 : FVec Ideal Cert.ReferenceIdeal.S128 .f32)
    (w3 : FVec Ideal Cert.ReferenceIdeal.S128x64 .f32) (b3 g3 be3 : FVec Ideal Cert.ReferenceIdeal.S64 .f32)
    (w4 : FVec Ideal Cert.ReferenceIdeal.S64x10 .f32) (b4 : FVec Ideal Cert.ReferenceIdeal.S10 .f32) :
    Cert.KernelIdeal.Gen.k4_pay1 (F := Ideal)
        (Cert.KernelIdeal.Gen.k4_pay4
          (Cert.KernelIdeal.Gen.k4_pay2 c w1 (row256 b1) (row256 g1) (row256 be1))
          (Cert.KernelIdeal.Gen.k4_pay3 w2)
          (constant Cert.KernelIdeal.S256x128 .f32 0x00000000#32)
          (row128 b2) (row128 g2) (row128 be2) w3 (row64 b3))
        (Cert.KernelIdeal.Gen.k4_pay5 (row64 g3)) (row64 be3) w4 (row10 b4)
      = mlpRef c w1 b1 g1 be1 w2 b2 g2 be2 w3 b3 g3 be3 w4 b4 := by
  rw [pay1_eq, pay4_eq, pay2_eq, pay3_eq, pay5_eq]
  simp only [shapeCast_self]

  rw [lin_law Cert.KernelIdeal.dot_S256x64_S64x256_S256x256_1_0_0_1_n_n c w1 b1 _ _ _ _
      Cert.ReferenceIdeal.Gen.bcast_S256_S1x256_1 Cert.ReferenceIdeal.Gen.bcast_S1x256_S256x256_0_1,
    dot1_eq]
  rw [act_law _ g1 be1 Cert.KernelIdeal.Gen.reduces_S256x256_S256 Cert.ReferenceIdeal.Gen.reducesTo_S256x256_S256_d0 _ _
      Cert.ReferenceIdeal.Gen.h_S_ Cert.ReferenceIdeal.Gen.bcast_S_S256
      Cert.ReferenceIdeal.Gen.bcast_S256_S1x256_1 Cert.ReferenceIdeal.Gen.bcast_S1x256_S256x256_0_1]

  rw [lin_law Cert.KernelIdeal.dot_S256x256_S256x128_S256x128_1_0_0_1_n_n _ w2 b2 _ _ _ _
      Cert.ReferenceIdeal.Gen.bcast_S128_S1x128_1 Cert.ReferenceIdeal.Gen.bcast_S1x128_S256x128_0_1,
    dot2_eq]
  rw [act_law _ g2 be2 Cert.KernelIdeal.Gen.reduces_S256x128_S128 Cert.ReferenceIdeal.Gen.reducesTo_S256x128_S128_d0 _ _
      Cert.ReferenceIdeal.Gen.h_S_ Cert.ReferenceIdeal.Gen.bcast_S_S128
      Cert.ReferenceIdeal.Gen.bcast_S128_S1x128_1 Cert.ReferenceIdeal.Gen.bcast_S1x128_S256x128_0_1]

  rw [lin_law Cert.KernelIdeal.dot_S256x128_S128x64_S256x64_1_0_0_1_n_n _ w3 b3 _ _ _ _
      Cert.ReferenceIdeal.Gen.bcast_S64_S1x64_1 Cert.ReferenceIdeal.Gen.bcast_S1x64_S256x64_0_1,
    dot3_eq]
  rw [act_law _ g3 be3 Cert.KernelIdeal.Gen.reduces_S256x64_S64 Cert.ReferenceIdeal.Gen.reducesTo_S256x64_S64_d0 _ _
      Cert.ReferenceIdeal.Gen.h_S_ Cert.ReferenceIdeal.Gen.bcast_S_S64
      Cert.ReferenceIdeal.Gen.bcast_S64_S1x64_1 Cert.ReferenceIdeal.Gen.bcast_S1x64_S256x64_0_1]

  rw [lin_law Cert.KernelIdeal.dot_S256x64_S64x10_S256x10_1_0_0_1_n_n _ w4 b4 _ _ _ _
      Cert.ReferenceIdeal.Gen.bcast_S10_S1x10_1 Cert.ReferenceIdeal.Gen.bcast_S1x10_S256x10_0_1,
    dot4_eq]
  rw [mlpRef_eq, z3_eq, z2_eq]
  rfl

end Cert.Bridge

end
-- ==== Proof.RefSide.lean ====
/- The reference program's result as the named composition used for the kernel program's value, each named intermediate of its
   composed term identified smallest first; and two layout facts: a vector as a one-row and as a one-column matrix. -/
import proofs.«409739_j33028298506661_1_alg».proof.Proof.Gen.ReferenceIdeal.Run
import proofs.«409739_j33028298506661_1_alg».proof.Proof.KI.Host
import proofs.«409739_j33028298506661_1_alg».proof.Proof.KI.SageValue0
import proofs.«409739_j33028298506661_1_alg».proof.Proof.KI.SageValue1
import proofs.«409739_j33028298506661_1_alg».proof.Proof.KI.SageValue2
import proofs.«409739_j33028298506661_1_alg».proof.Proof.KI.PoolRows
import proofs.«409739_j33028298506661_1_alg».proof.Proof.MlpLaw
import Idealize.ShloMosaic.Lib.ValueLayout
import Idealize.ShloMosaic.Lib.Pipeline.Value
import Idealize.ShloMosaic.Lib.KernelVsHost

set_option maxRecDepth 16384

noncomputable section

namespace Cert.Bridge

open Idealize.ShloMosaic Idealize.ShloMosaic.TcCoe Idealize.SL.Sem
open Idealize.ShloMosaic.ValueIdx

section RefSide

variable (V0 : Valuation Cert.ReferenceIdeal.τ Cert.ReferenceIdeal.sig (Elt Ideal))

abbrev ra (r : Ref Cert.ReferenceIdeal.sig .tc) := V0 (Proc.devRef .tc r)

def rSrc : IVec Cert.ReferenceIdeal.S800000 32 := Cert.KernelIdeal.Gen.srcOf (ra V0 Cert.ReferenceIdeal.main_arg1)

def rDst : IVec Cert.ReferenceIdeal.S800000 32 := Cert.KernelIdeal.Gen.dstOf (ra V0 Cert.ReferenceIdeal.main_arg1)

def rDeg : FVec Ideal Cert.ReferenceIdeal.S50000x1 .f32 := Cert.KernelIdeal.Gen.degCol (F := Ideal) (rDst V0)

abbrev rRow64 (v : FVec Ideal Cert.ReferenceIdeal.S64 .f32) : FVec Ideal Cert.ReferenceIdeal.S1x64 .f32 :=
  broadcastInDim Cert.ReferenceIdeal.S1x64 ![1] Cert.ReferenceIdeal.Facts₀.bcast_S64_S1x64_1 v

def rH1 : FVec Ideal Cert.ReferenceIdeal.S50000x64 .f32 :=
  Cert.KernelIdeal.Gen.sageRows0 (Cert.KernelIdeal.Gen.meanAgg128 (ra V0 Cert.ReferenceIdeal.main_arg0) (rSrc V0) (rDst V0) (rDeg V0))
    (ra V0 Cert.ReferenceIdeal.main_arg0) (ra V0 Cert.ReferenceIdeal.main_arg3) (rRow64 (ra V0 Cert.ReferenceIdeal.main_arg4)) (ra V0 Cert.ReferenceIdeal.main_arg5)

def rH2 : FVec Ideal Cert.ReferenceIdeal.S50000x64 .f32 :=
  Cert.KernelIdeal.Gen.sageRows1 (Cert.KernelIdeal.Gen.meanAgg64 (rH1 V0) (rSrc V0) (rDst V0) (rDeg V0))
    (rH1 V0) (ra V0 Cert.ReferenceIdeal.main_arg6) (rRow64 (ra V0 Cert.ReferenceIdeal.main_arg7)) (ra V0 Cert.ReferenceIdeal.main_arg8)

def rH3 : FVec Ideal Cert.ReferenceIdeal.S50000x64 .f32 :=
  Cert.KernelIdeal.Gen.sageRows1 (Cert.KernelIdeal.Gen.meanAgg64 (rH2 V0) (rSrc V0) (rDst V0) (rDeg V0))
    (rH2 V0) (ra V0 Cert.ReferenceIdeal.main_arg9) (rRow64 (ra V0 Cert.ReferenceIdeal.main_arg10)) (ra V0 Cert.ReferenceIdeal.main_arg11)

def rPsum : FVec Ideal Cert.ReferenceIdeal.S256x64 .f32 :=
  Cert.KernelIdeal.Gen.poolRows (rH3 V0)
    (broadcastInDim Cert.ReferenceIdeal.S50000x1 ![0] Cert.ReferenceIdeal.Facts₀.bcast_S50000_S50000x1_0 (ra V0 Cert.ReferenceIdeal.main_arg2))

def rPooled : FVec Ideal Cert.ReferenceIdeal.S256x64 .f32 :=
  Cert.KernelIdeal.Gen.poolMean (rPsum V0) (ra V0 Cert.ReferenceIdeal.main_arg2)

def rOut : FVec Ideal Cert.ReferenceIdeal.S256x10 .f32 :=
  mlpRef (rPooled V0) (ra V0 Cert.ReferenceIdeal.main_arg12) (ra V0 Cert.ReferenceIdeal.main_arg13) (ra V0 Cert.ReferenceIdeal.main_arg14)
    (ra V0 Cert.ReferenceIdeal.main_arg15) (ra V0 Cert.ReferenceIdeal.main_arg16) (ra V0 Cert.ReferenceIdeal.main_arg17)
    (ra V0 Cert.ReferenceIdeal.main_arg18) (ra V0 Cert.ReferenceIdeal.main_arg19) (ra V0 Cert.ReferenceIdeal.main_arg20)
    (ra V0 Cert.ReferenceIdeal.main_arg21) (ra V0 Cert.ReferenceIdeal.main_arg22) (ra V0 Cert.ReferenceIdeal.main_arg23)
    (ra V0 Cert.ReferenceIdeal.main_arg24) (ra V0 Cert.ReferenceIdeal.main_arg25)

theorem res_v1 : Cert.ReferenceIdeal.Value.res_main_v1 V0 = rSrc V0 := rfl
theorem res_v3 : Cert.ReferenceIdeal.Value.res_main_v3 V0 = rDst V0 := rfl

theorem res_v28 : Cert.ReferenceIdeal.Value.res_main_v28 V0 = rH1 V0 := by
  unfold Cert.ReferenceIdeal.Value.res_main_v28
  rw [res_v1, res_v3]
  rfl

theorem res_v53 : Cert.ReferenceIdeal.Value.res_main_v53 V0 = rH2 V0 := by
  unfold Cert.ReferenceIdeal.Value.res_main_v53
  rw [res_v1, res_v3, res_v28]
  rfl

theorem res_v94 : Cert.ReferenceIdeal.Value.res_main_v94 V0 = z1 (rPooled V0) (ra V0 Cert.ReferenceIdeal.main_arg12) (ra V0 Cert.ReferenceIdeal.main_arg13) := by
  unfold Cert.ReferenceIdeal.Value.res_main_v94
  rw [res_v1, res_v3, res_v53]
  rfl

theorem res_v97 : Cert.ReferenceIdeal.Value.res_main_v97 V0 = mean1 (rPooled V0) (ra V0 Cert.ReferenceIdeal.main_arg12) (ra V0 Cert.ReferenceIdeal.main_arg13) := by
  unfold Cert.ReferenceIdeal.Value.res_main_v97
  rw [res_v94]
  rfl
theorem res_v100 : Cert.ReferenceIdeal.Value.res_main_v100 V0 = zc1 (rPooled V0) (ra V0 Cert.ReferenceIdeal.main_arg12) (ra V0 Cert.ReferenceIdeal.main_arg13) := by
  unfold Cert.ReferenceIdeal.Value.res_main_v100
  rw [res_v94, res_v97]
  rfl

theorem res_v124 : Cert.ReferenceIdeal.Value.res_main_v124 V0 = z2 (rPooled V0) (ra V0 Cert.ReferenceIdeal.main_arg12) (ra V0 Cert.ReferenceIdeal.main_arg13) (ra V0 Cert.ReferenceIdeal.main_arg14) (ra V0 Cert.ReferenceIdeal.main_arg15) (ra V0 Cert.ReferenceIdeal.main_arg16) (ra V0 Cert.ReferenceIdeal.main_arg17) := by
  unfold Cert.ReferenceIdeal.Value.res_main_v124
  rw [res_v94, res_v97, res_v100]
  rfl
theorem res_v127 : Cert.ReferenceIdeal.Value.res_main_v127 V0 = mean2 (rPooled V0) (ra V0 Cert.ReferenceIdeal.main_arg12) (ra V0 Cert.ReferenceIdeal.main_arg13) (ra V0 Cert.ReferenceIdeal.main_arg14) (ra V0 Cert.ReferenceIdeal.main_arg15) (ra V0 Cert.ReferenceIdeal.main_arg16) (ra V0 Cert.ReferenceIdeal.main_arg17) := by
  unfold Cert.ReferenceIdeal.Value.res_main_v127
  rw [res_v124]
  rfl
theorem res_v130 : Cert.ReferenceIdeal.Value.res_main_v130 V0 = zc2 (rPooled V0) (ra V0 Cert.ReferenceIdeal.main_arg12) (ra V0 Cert.ReferenceIdeal.main_arg13) (ra V0 Cert.ReferenceIdeal.main_arg14) (ra V0 Cert.ReferenceIdeal.main_arg15) (ra V0 Cert.ReferenceIdeal.main_arg16) (ra V0 Cert.ReferenceIdeal.main_arg17) := by
  unfold Cert.ReferenceIdeal.Value.res_main_v130
  rw [res_v124, res_v127]
  rfl

theorem res_v154 : Cert.ReferenceIdeal.Value.res_main_v154 V0 = z3 (rPooled V0) (ra V0 Cert.ReferenceIdeal.main_arg12) (ra V0 Cert.ReferenceIdeal.main_arg13) (ra V0 Cert.ReferenceIdeal.main_arg14) (ra V0 Cert.ReferenceIdeal.main_arg15) (ra V0 Cert.ReferenceIdeal.main_arg16) (ra V0 Cert.ReferenceIdeal.main_arg17) (ra V0 Cert.ReferenceIdeal.main_arg18) (ra V0 Cert.ReferenceIdeal.main_arg19) (ra V0 Cert.ReferenceIdeal.main_arg20) (ra V0 Cert.ReferenceIdeal.main_arg21) := by
  unfold Cert.ReferenceIdeal.Value.res_main_v154
  rw [res_v124, res_v127, res_v130]
  rfl
theorem res_v157 : Cert.ReferenceIdeal.Value.res_main_v157 V0 = mean3 (rPooled V0) (ra V0 Cert.ReferenceIdeal.main_arg12) (ra V0 Cert.ReferenceIdeal.main_arg13) (ra V0 Cert.ReferenceIdeal.main_arg14) (ra V0 Cert.ReferenceIdeal.main_arg15) (ra V0 Cert.ReferenceIdeal.main_arg16) (ra V0 Cert.ReferenceIdeal.main_arg17) (ra V0 Cert.ReferenceIdeal.main_arg18) (ra V0 Cert.ReferenceIdeal.main_arg19) (ra V0 Cert.ReferenceIdeal.main_arg20) (ra V0 Cert.ReferenceIdeal.main_arg21) := by
  unfold Cert.ReferenceIdeal.Value.res_main_v157
  rw [res_v154]
  rfl
theorem res_v160 : Cert.ReferenceIdeal.Value.res_main_v160 V0 = zc3 (rPooled V0) (ra V0 Cert.ReferenceIdeal.main_arg12) (ra V0 Cert.ReferenceIdeal.main_arg13) (ra V0 Cert.ReferenceIdeal.main_arg14) (ra V0 Cert.ReferenceIdeal.main_arg15) (ra V0 Cert.ReferenceIdeal.main_arg16) (ra V0 Cert.ReferenceIdeal.main_arg17) (ra V0 Cert.ReferenceIdeal.main_arg18) (ra V0 Cert.ReferenceIdeal.main_arg19) (ra V0 Cert.ReferenceIdeal.main_arg20) (ra V0 Cert.ReferenceIdeal.main_arg21) := by
  unfold Cert.ReferenceIdeal.Value.res_main_v160
  rw [res_v154, res_v157]
  rfl

theorem ref_val : Cert.ReferenceIdeal.Value.val4 V0 (Proc.devRef .tc Cert.ReferenceIdeal.main_v184) = rOut V0 := by
  refine (Cert.ReferenceIdeal.Value.val4_main_v184 V0).trans ?_
  rw [res_v154, res_v157, res_v160]
  rfl

end RefSide

section Layout
variable {α : Type}

theorem vecRow_eq {n : Nat} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val = 0 := by have h : (i 0).val < 1 := (i 0).isLt; omega
  have e2 := shapeCast_apply x h1 i (ix1 (i 1 : Fin n)) (by
    rw [Shape.rowMajor_val_one, Shape.rowMajor_val_two, h0]; show (i 1).val = 0 * n + (i 1).val; omega)
  have e3 := broadcastInDim_apply ![1] hd x i (ix1 (i 1 : Fin n)) (by
    intro a
    match a with
    | ⟨0, _⟩ =>
      show (i 1).val = if n = 1 then 0 else (i 1).val
      split
      · have h : (i 1).val < n := (i 1).isLt; omega
      · rfl)
  exact e2.trans e3.symm

theorem vecCol_eq {n : Nat} (x : (⟨1, ![n]⟩ : Shape).Idx → α)
    (h1 : (⟨1, ![n]⟩ : Shape).ShapeCasts ⟨2, ![n, 1]⟩) (hd : (⟨1, ![n]⟩ : Shape).BroadcastsInDim ⟨2, ![n, 1]⟩ ![0]) :
    shapeCast ⟨2, ![n, 1]⟩ x h1 = broadcastInDim ⟨2, ![n, 1]⟩ ![0] hd x := by
  funext i
  have h0 : (i 1).val = 0 := by have h : (i 1).val < 1 := (i 1).isLt; omega
  have e2 := shapeCast_apply x h1 i (ix1 (i 0 : Fin n)) (by
    rw [Shape.rowMajor_val_one, Shape.rowMajor_val_two, h0]; show (i 0).val = (i 0).val * 1 + 0; omega)
  have e3 := broadcastInDim_apply ![0] hd x i (ix1 (i 0 : Fin n)) (by
    intro a
    match a with
    | ⟨0, _⟩ =>
      show (i 0).val = if n = 1 then 0 else (i 0).val
      split
      · have h : (i 0).val < n := (i 0).isLt; omega
      · rfl)
  exact e2.trans e3.symm

end Layout

theorem row64_eq (v : FVec Ideal Cert.KernelIdeal.S64 .f32) :
    shapeCast Cert.KernelIdeal.S1x64 v Cert.KernelIdeal.Gen.shapeCasts_S64_S1x64
      = broadcastInDim Cert.ReferenceIdeal.S1x64 ![1] Cert.ReferenceIdeal.Facts₀.bcast_S64_S1x64_1 v :=
  vecRow_eq v _ _

theorem idsCol_eq (v : IVec Cert.KernelIdeal.S50000 32) :
    shapeCast Cert.KernelIdeal.S50000x1 v Cert.KernelIdeal.Gen.shapeCasts_S50000_S50000x1
      = broadcastInDim Cert.ReferenceIdeal.S50000x1 ![0] Cert.ReferenceIdeal.Facts₀.bcast_S50000_S50000x1_0 v :=
  vecCol_eq v _ _

end Cert.Bridge

end
-- ==== Proof.Bridge.lean ====
/- The two programs' results are one function of arguments that agree: each is a composition of the same named functions
   (endpoints and in-degrees, three layers, pooled sums and means, the perceptron), compared smallest first. -/
import proofs.«409739_j33028298506661_1_alg».proof.Proof.KI.KVal
import proofs.«409739_j33028298506661_1_alg».proof.Proof.RefSide
import proofs.«409739_j33028298506661_1_alg».proof.Proof.MlpLaw

noncomputable section

namespace Cert.Bridge

open Idealize.ShloMosaic Idealize.ShloMosaic.TcCoe Idealize.SL.Sem

section Agree

variable (A : Valuation Cert.KernelIdeal.τ Cert.KernelIdeal.sig (Elt Ideal))
variable (V0 : Valuation Cert.ReferenceIdeal.τ Cert.ReferenceIdeal.sig (Elt Ideal))

/-- The two programs' arguments hold the same contents. -/
abbrev Agree : Prop :=
  ra V0 Cert.ReferenceIdeal.main_arg0 = Cert.KernelIdeal.Gen.arg A Cert.KernelIdeal.main_arg0
  ∧ ra V0 Cert.ReferenceIdeal.main_arg1 = Cert.KernelIdeal.Gen.arg A Cert.KernelIdeal.main_arg1
  ∧ ra V0 Cert.ReferenceIdeal.main_arg2 = Cert.KernelIdeal.Gen.arg A Cert.KernelIdeal.main_arg2
  ∧ ra V0 Cert.ReferenceIdeal.main_arg3 = Cert.KernelIdeal.Gen.arg A Cert.KernelIdeal.main_arg3
  ∧ ra V0 Cert.ReferenceIdeal.main_arg4 = Cert.KernelIdeal.Gen.arg A Cert.KernelIdeal.main_arg4
  ∧ ra V0 Cert.ReferenceIdeal.main_arg5 = Cert.KernelIdeal.Gen.arg A Cert.KernelIdeal.main_arg5
  ∧ ra V0 Cert.ReferenceIdeal.main_arg6 = Cert.KernelIdeal.Gen.arg A Cert.KernelIdeal.main_arg6
  ∧ ra V0 Cert.ReferenceIdeal.main_arg7 = Cert.KernelIdeal.Gen.arg A Cert.KernelIdeal.main_arg7
  ∧ ra V0 Cert.ReferenceIdeal.main_arg8 = Cert.KernelIdeal.Gen.arg A Cert.KernelIdeal.main_arg8
  ∧ ra V0 Cert.ReferenceIdeal.main_arg9 = Cert.KernelIdeal.Gen.arg A Cert.KernelIdeal.main_arg9
  ∧ ra V0 Cert.ReferenceIdeal.main_arg10 = Cert.KernelIdeal.Gen.arg A Cert.KernelIdeal.main_arg10
  ∧ ra V0 Cert.ReferenceIdeal.main_arg11 = Cert.KernelIdeal.Gen.arg A Cert.KernelIdeal.main_arg11
  ∧ ra V0 Cert.ReferenceIdeal.main_arg12 = Cert.KernelIdeal.Gen.arg A Cert.KernelIdeal.main_arg12
  ∧ ra V0 Cert.ReferenceIdeal.main_arg13 = Cert.KernelIdeal.Gen.arg A Cert.KernelIdeal.main_arg13
  ∧ ra V0 Cert.ReferenceIdeal.main_arg14 = Cert.KernelIdeal.Gen.arg A Cert.KernelIdeal.main_arg14
  ∧ ra V0 Cert.ReferenceIdeal.main_arg15 = Cert.KernelIdeal.Gen.arg A Cert.KernelIdeal.main_arg15
  ∧ ra V0 Cert.ReferenceIdeal.main_arg16 = Cert.KernelIdeal.Gen.arg A Cert.KernelIdeal.main_arg16
  ∧ ra V0 Cert.ReferenceIdeal.main_arg17 = Cert.KernelIdeal.Gen.arg A Cert.KernelIdeal.main_arg17
  ∧ ra V0 Cert.ReferenceIdeal.main_arg18 = Cert.KernelIdeal.Gen.arg A Cert.KernelIdeal.main_arg18
  ∧ ra V0 Cert.ReferenceIdeal.main_arg19 = Cert.KernelIdeal.Gen.arg A Cert.KernelIdeal.main_arg19
  ∧ ra V0 Cert.ReferenceIdeal.main_arg20 = Cert.KernelIdeal.Gen.arg A Cert.KernelIdeal.main_arg20
  ∧ ra V0 Cert.ReferenceIdeal.main_arg21 = Cert.KernelIdeal.Gen.arg A Cert.KernelIdeal.main_arg21
  ∧ ra V0 Cert.ReferenceIdeal.main_arg22 = Cert.KernelIdeal.Gen.arg A Cert.KernelIdeal.main_arg22
  ∧ ra V0 Cert.ReferenceIdeal.main_arg23 = Cert.KernelIdeal.Gen.arg A Cert.KernelIdeal.main_arg23
  ∧ ra V0 Cert.ReferenceIdeal.main_arg24 = Cert.KernelIdeal.Gen.arg A Cert.KernelIdeal.main_arg24
  ∧ ra V0 Cert.ReferenceIdeal.main_arg25 = Cert.KernelIdeal.Gen.arg A Cert.KernelIdeal.main_arg25

variable {A V0} (h : Agree A V0)
include h

theorem src_eq : Cert.KernelIdeal.Gen.kSrc A = rSrc V0 := by
  unfold Cert.KernelIdeal.Gen.kSrc rSrc
  rw [h.2.1]

theorem dst_eq : Cert.KernelIdeal.Gen.kDst A = rDst V0 := by
  unfold Cert.KernelIdeal.Gen.kDst rDst
  rw [h.2.1]

theorem deg_eq : Cert.KernelIdeal.Gen.kDeg A = rDeg V0 := by
  unfold Cert.KernelIdeal.Gen.kDeg rDeg
  rw [dst_eq h]

theorem h1_eq : Cert.KernelIdeal.Gen.kH1 A = rH1 V0 := by
  unfold Cert.KernelIdeal.Gen.kH1 rH1
  rw [src_eq h, dst_eq h, deg_eq h, row64_eq, h.1, h.2.2.2.1, h.2.2.2.2.1, h.2.2.2.2.2.1]

theorem h2_eq : Cert.KernelIdeal.Gen.kH2 A = rH2 V0 := by
  unfold Cert.KernelIdeal.Gen.kH2 rH2
  rw [h1_eq h, src_eq h, dst_eq h, deg_eq h, row64_eq, h.2.2.2.2.2.2.1, h.2.2.2.2.2.2.2.1, h.2.2.2.2.2.2.2.2.1]

theorem h3_eq : Cert.KernelIdeal.Gen.kH3 A = rH3 V0 := by
  unfold Cert.KernelIdeal.Gen.kH3 rH3
  rw [h2_eq h, src_eq h, dst_eq h, deg_eq h, row64_eq, h.2.2.2.2.2.2.2.2.2.1, h.2.2.2.2.2.2.2.2.2.2.1, h.2.2.2.2.2.2.2.2.2.2.2.1]

theorem psum_eq : Cert.KernelIdeal.Gen.kPsum A = rPsum V0 := by
  unfold Cert.KernelIdeal.Gen.kPsum rPsum
  rw [h3_eq h, idsCol_eq, h.2.2.1]

theorem pooled_eq : Cert.KernelIdeal.Gen.kPooled A = rPooled V0 := by
  unfold Cert.KernelIdeal.Gen.kPooled rPooled
  rw [psum_eq h, h.2.2.1]

theorem out_eq : Cert.KernelIdeal.Gen.kOut A = rOut V0 := by
  unfold rOut
  rw [← pooled_eq h, h.2.2.2.2.2.2.2.2.2.2.2.2.1, h.2.2.2.2.2.2.2.2.2.2.2.2.2.1, h.2.2.2.2.2.2.2.2.2.2.2.2.2.2.1, h.2.2.2.2.2.2.2.2.2.2.2.2.2.2.2.1, h.2.2.2.2.2.2.2.2.2.2.2.2.2.2.2.2.1, h.2.2.2.2.2.2.2.2.2.2.2.2.2.2.2.2.2.1, h.2.2.2.2.2.2.2.2.2.2.2.2.2.2.2.2.2.2.1, h.2.2.2.2.2.2.2.2.2.2.2.2.2.2.2.2.2.2.2.1, h.2.2.2.2.2.2.2.2.2.2.2.2.2.2.2.2.2.2.2.2.1, h.2.2.2.2.2.2.2.2.2.2.2.2.2.2.2.2.2.2.2.2.2.1, h.2.2.2.2.2.2.2.2.2.2.2.2.2.2.2.2.2.2.2.2.2.2.1, h.2.2.2.2.2.2.2.2.2.2.2.2.2.2.2.2.2.2.2.2.2.2.2.1, h.2.2.2.2.2.2.2.2.2.2.2.2.2.2.2.2.2.2.2.2.2.2.2.2.1, h.2.2.2.2.2.2.2.2.2.2.2.2.2.2.2.2.2.2.2.2.2.2.2.2.2]
  unfold Cert.KernelIdeal.Gen.kOut
  exact mlp_law (Cert.KernelIdeal.Gen.kPooled A) (Cert.KernelIdeal.Gen.arg A Cert.KernelIdeal.main_arg12) (Cert.KernelIdeal.Gen.arg A Cert.KernelIdeal.main_arg13) (Cert.KernelIdeal.Gen.arg A Cert.KernelIdeal.main_arg14) (Cert.KernelIdeal.Gen.arg A Cert.KernelIdeal.main_arg15) (Cert.KernelIdeal.Gen.arg A Cert.KernelIdeal.main_arg16) (Cert.KernelIdeal.Gen.arg A Cert.KernelIdeal.main_arg17) (Cert.KernelIdeal.Gen.arg A Cert.KernelIdeal.main_arg18) (Cert.KernelIdeal.Gen.arg A Cert.KernelIdeal.main_arg19) (Cert.KernelIdeal.Gen.arg A Cert.KernelIdeal.main_arg20) (Cert.KernelIdeal.Gen.arg A Cert.KernelIdeal.main_arg21) (Cert.KernelIdeal.Gen.arg A Cert.KernelIdeal.main_arg22) (Cert.KernelIdeal.Gen.arg A Cert.KernelIdeal.main_arg23) (Cert.KernelIdeal.Gen.arg A Cert.KernelIdeal.main_arg24) (Cert.KernelIdeal.Gen.arg A Cert.KernelIdeal.main_arg25)

end Agree

end Cert.Bridge

end
-- ==== Proof.lean ====
/- The certificate of the graph network kernel (three mean-aggregation layers, a global mean pool, a four-layer perceptron with
   batch normalisation) against its reference. Frames: the kernel program is launched once over its five regions and ends with
   every argument, which nothing writes, at its launch contents; the reference's frame is its run with the result dropped. Values:
   each layer is `meanAgg(h) · Wl + bl + h · Wr` on whole arrays, the one-hot pooling product is the reference's accumulating
   scatter, and `x · rsqrt(v + ε) = x / sqrt(v + ε)` because v + ε is positive. -/
import proofs.«409739_j33028298506661_1_alg».proof.Defs
import proofs.«409739_j33028298506661_1_alg».proof.Proof.Gen.Kernel
import proofs.«409739_j33028298506661_1_alg».proof.Proof.Gen.KernelIdeal
import proofs.«409739_j33028298506661_1_alg».proof.Proof.Gen.ReferenceIdeal
import proofs.«409739_j33028298506661_1_alg».proof.Proof.Gen.Pre_finite_inputs
import proofs.«409739_j33028298506661_1_alg».proof.Proof.Gen.ReferenceIdeal.Run
import proofs.«409739_j33028298506661_1_alg».proof.Proof.K.Run
import proofs.«409739_j33028298506661_1_alg».proof.Proof.KI.Run
import proofs.«409739_j33028298506661_1_alg».proof.Proof.KI.Chain
import proofs.«409739_j33028298506661_1_alg».proof.Proof.RefSide
import proofs.«409739_j33028298506661_1_alg».proof.Proof.Bridge
import Idealize.ShloMosaic.Adequacy
import Idealize.ShloMosaic.Init

set_option maxRecDepth 16384

noncomputable section

namespace Cert.Proof

open Idealize.ShloMosaic Idealize.SL.Sem

/-- Each frame: the program's run, whose last contents hold every argument as launched. -/
theorem frame_k : Cert.frame_Kernel := fun m ρ _ =>
  (θ_run Cert.Kernel.defs _ _).mono (fun r h c => Cert.Kernel.Gen.all_args
    (P := fun a => r.2.mem ((c.tc : Thread Cert.Kernel.nD Cert.Kernel.τ).loc a) = m ((c.tc : Thread Cert.Kernel.nD Cert.Kernel.τ).loc a)) (Cert.Kernel.Gen.kept m ρ c _ (h c)))
    (Cert.Kernel.Gen.run_all m ρ)

theorem frame_ki : Cert.frame_KernelIdeal := fun m ρ _ =>
  (θ_run Cert.KernelIdeal.defs _ _).mono (fun r h c => Cert.KernelIdeal.Gen.all_args
    (P := fun a => r.2.mem ((c.tc : Thread Cert.KernelIdeal.nD Cert.KernelIdeal.τ).loc a) = m ((c.tc : Thread Cert.KernelIdeal.nD Cert.KernelIdeal.τ).loc a)) (Cert.KernelIdeal.Gen.kept m ρ c _ (h c)))
    (Cert.KernelIdeal.Gen.run_all m ρ)

theorem frame_r : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Gen in
/-- Both runs end with equal results: each result buffer holds the same composition of arguments that agree. -/
theorem algebraic : Cert.algebraic_KernelIdeal_ReferenceIdeal := by
  intro m g m' g' _ hag
  refine ⟨fun c => kOut (W0 m g c), ?_, ?_⟩
  · refine (θ_run Cert.KernelIdeal.defs _ _).mono (fun r h c => ?_) (Cert.KernelIdeal.Gen.run_all (F := Ideal) m g)
    exact ⟨(h c _ (mem_uc main_v74 (by decide))).trans (s10_v74 m g c),
      all_args (P := fun a => r.2.mem ((c.tc : Thread nD τ).loc a) = m ((c.tc : Thread nD τ).loc a)) (kept m g c _ (h c))⟩
  · refine (θ_run Cert.ReferenceIdeal.defs _ _).mono (fun r h c => ⟨(h c).1.trans ?_, (h c).2⟩)
      (Cert.ReferenceIdeal.Value.run (F := Ideal) m' g')
    refine ((Cert.ReferenceIdeal.Value.val4_main_v184 (StableHlo.launchContents m' c)).symm.trans
      (Cert.Bridge.ref_val (StableHlo.launchContents m' c))).trans ?_
    exact (Cert.Bridge.out_eq (A := W0 m g c) (V0 := StableHlo.launchContents m' c) (hag c)).symm

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
